-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S2x640000 : S_.BroadcastsInDim S2x640000 (![] : Fin 0 → Fin S2x640000.rank)
  reducesTo_S2x640000_S_d0_1 : S2x640000.ReducesTo [0, 1] S_

variable [Facts]

def fn_part3 {F : FTy → Type} [FloatOps F] (main_arg1 : IVec S2x640000 32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x640000 32 := broadcastInDim S2x640000 ![] bcast_S_S2x640000 main_c_22
  let main_v60 : IVec S2x640000 1 := cmpi .sge main_arg1 main_v59
  let main_c_23 : IVec S_ 32 := constantI S_ 32 50000#32
  let main_v61 : IVec S2x640000 32 := broadcastInDim S2x640000 ![] bcast_S_S2x640000 main_c_23
  let main_v62 : IVec S2x640000 1 := cmpi .slt main_arg1 main_v61
  let main_v63 : IVec S2x640000 1 := andi main_v60 main_v62
  let main_c_24 : IVec S_ 1 := constantI S_ 1 1#1
  let main_v64 : IVec S_ 1 := (fun x v => Host.reduce IntOp.andi x v reducesTo_S2x640000_S_d0_1 h_S_) main_v63 main_c_24
  let main_v65 : IVec S_ 1 := andi main_v58 main_v64
  main_v65

def fn_part2 {F : FTy → Type} [FloatOps F] (main_arg1 : IVec S2x640000 32) (main_arg8 : FVec F S128 .f32) (main_arg9 : FVec F S128x128 .f32) (main_arg10 : FVec F S128 .f32) (main_arg11 : FVec F S128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_v48 main_v49 main_v50

def fn_part1 {F : FTy → Type} [FloatOps F] (main_arg1 : IVec S2x640000 32) (main_arg5 : FVec F S128x256 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x128 .f32) (main_arg1 : IVec S2x640000 32) (main_arg2 : FVec F S640000x128 .f32) (main_arg3 : FVec F S128x128 .f32) (main_arg4 : FVec F S128 .f32) (main_arg5 : FVec F S128x256 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S50000x128 : Shape := ⟨2, ![50000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S10000x128 : Shape := ⟨2, ![10000, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S256x128 : Shape := ⟨2, ![256, 128]⟩
abbrev S5000x128 : Shape := ⟨2, ![5000, 128]⟩

abbrev nBuf : Space → Nat
  | .hbm => 114
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S1x128, .f32⟩
  | .hbm, ⟨15, _⟩ => ⟨S50000x128, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S1, .i32⟩
  | .hbm, ⟨29, _⟩ => ⟨S_, .i32⟩
  | .hbm, ⟨30, _⟩ => ⟨S640000x1, .i32⟩
  | .hbm, ⟨31, _⟩ => ⟨S640000x1, .i1⟩
  | .hbm, ⟨32, _⟩ => ⟨S1x1, .i32⟩
  | .hbm, ⟨33, _⟩ => ⟨S640000x1, .i32⟩
  | .hbm, ⟨34, _⟩ => ⟨S640000x1, .i1⟩
  | .hbm, ⟨35, _⟩ => ⟨S640000x1, .i1⟩
  | .hbm, ⟨36, _⟩ => ⟨S_, .i1⟩
  | .hbm, ⟨37, _⟩ => ⟨S640000, .i1⟩
  | .hbm, ⟨38, _⟩ => ⟨S640000x128, .f32⟩
  | .hbm, ⟨39, _⟩ => ⟨S640000x128, .i1⟩
  | .hbm, ⟨40, _⟩ => ⟨S_, .f32⟩
  | .hbm, ⟨41, _⟩ => ⟨S640000x128, .f32⟩
  | .hbm, ⟨42, _⟩ => ⟨S640000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S1, .i32⟩
  | .hbm, ⟨52, _⟩ => ⟨S_, .i32⟩
  | .hbm, ⟨53, _⟩ => ⟨S640000x1, .i32⟩
  | .hbm, ⟨54, _⟩ => ⟨S640000x1, .i1⟩
  | .hbm, ⟨55, _⟩ => ⟨S1x1, .i32⟩
  | .hbm, ⟨56, _⟩ => ⟨S640000x1, .i32⟩
  | .hbm, ⟨57, _⟩ => ⟨S640000x1, .i1⟩
  | .hbm, ⟨58, _⟩ => ⟨S640000x1, .i1⟩
  | .hbm, ⟨59, _⟩ => ⟨S_, .i1⟩
  | .hbm, ⟨60, _⟩ => ⟨S640000, .i1⟩
  | .hbm, ⟨61, _⟩ => ⟨S640000x128, .f32⟩
  | .hbm, ⟨62, _⟩ => ⟨S640000x128, .i1⟩
  | .hbm, ⟨63, _⟩ => ⟨S_, .f32⟩
  | .hbm, ⟨64, _⟩ => ⟨S640000x128, .f32⟩
  | .hbm, ⟨65, _⟩ => ⟨S640000x128, .f32⟩
  | .hbm, ⟨66, _⟩ => ⟨S640000x128, .f32⟩
  | .hbm, ⟨67, _⟩ => ⟨S256x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S640000x128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S_, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S_, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S128x128, .f32⟩
  | .hbm, ⟨92, _⟩ => ⟨S1x128, .f32⟩
  | .hbm, ⟨93, _⟩ => ⟨S640000x128, .f32⟩
  | .hbm, ⟨94, _⟩ => ⟨S1x128, .f32⟩
  | .hbm, ⟨95, _⟩ => ⟨S1x128, .f32⟩
  | .hbm, ⟨96, _⟩ => ⟨S_, .f32⟩
  | .hbm, ⟨97, _⟩ => ⟨S1x128, .f32⟩
  | .hbm, ⟨98, _⟩ => ⟨S1x128, .f32⟩
  | .hbm, ⟨99, _⟩ => ⟨S_, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S_, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S1x128, .f32⟩
  | .hbm, ⟨111, _⟩ => ⟨S1x128, .f32⟩
  | .hbm, ⟨112, _⟩ => ⟨S1x128, .f32⟩
  | .hbm, ⟨113, _⟩ => ⟨S640000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S10000x128, .f32⟩
  | .local _ .vmem, ⟨32, _⟩ => ⟨S10000x128, .f32⟩
  | .local _ .vmem, ⟨33, _⟩ => ⟨S1x128, .f32⟩
  | .local _ .vmem, ⟨34, _⟩ => ⟨S1x128, .f32⟩
  | .local _ .vmem, ⟨35, _⟩ => ⟨S10000x128, .f32⟩
  | .local _ .vmem, ⟨36, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v7 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14_0 : Ref sig .tc := ⟨.hbm, 71, rfl⟩
abbrev main_v14_1 : Ref sig .tc := ⟨.hbm, 72, rfl⟩
abbrev main_v14_2 : Ref sig .tc := ⟨.hbm, 73, rfl⟩
abbrev main_cst : Ref sig .tc := ⟨.hbm, 74, rfl⟩
abbrev main_v15 : Ref sig .tc := ⟨.hbm, 75, rfl⟩
abbrev main_v16 : Ref sig .tc := ⟨.hbm, 76, rfl⟩
abbrev main_cst_0 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_cst_1 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31_0 : Ref sig .tc := ⟨.hbm, 93, rfl⟩
abbrev main_v31_1 : Ref sig .tc := ⟨.hbm, 94, rfl⟩
abbrev main_v31_2 : Ref sig .tc := ⟨.hbm, 95, rfl⟩
abbrev main_cst_2 : Ref sig .tc := ⟨.hbm, 96, rfl⟩
abbrev main_v32 : Ref sig .tc := ⟨.hbm, 97, rfl⟩
abbrev main_v33 : Ref sig .tc := ⟨.hbm, 98, rfl⟩
abbrev main_cst_3 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_cst_4 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg7_0 : Ref sig .tc := ⟨.vmem, 28, rfl⟩
abbrev cc2_scratch0 : Ref sig .tc := ⟨.vmem, 29, rfl⟩
abbrev cc2_scratch1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg3_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem7_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def k1_cond2 (i : grid1.Coords) : BitVec 1 :=
  let arg0 : BitVec 32 := BitVec.ofNat 32 (i 0).val
  let c127_i32 : BitVec 32 := 127#32
  let v37 : BitVec 1 := Scalar.cmpi .eq arg0 c127_i32
  let v38 : BitVec 32 := Scalar.extui v37
  let c0_i32_23 : BitVec 32 := 0#32
  let v39 : BitVec 1 := Scalar.cmpi .ne v38 c0_i32_23
  v39

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![128], ![false]⟩

def k2_cond2 (i : grid2.Coords) : BitVec 1 :=
  let arg0 : BitVec 32 := BitVec.ofNat 32 (i 0).val
  let c127_i32 : BitVec 32 := 127#32
  let v40 : BitVec 1 := Scalar.cmpi .eq arg0 c127_i32
  let v41 : BitVec 32 := Scalar.extui v40
  let c0_i32_23 : BitVec 32 := 0#32
  let v42 : BitVec 1 := Scalar.cmpi .ne v41 c0_i32_23
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  transposes_S128x256_S256x128_1_0 : S128x256.Transposes [1, 0] S256x128
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S10000x128_S10000x128 : S10000x128.ShapeCasts S10000x128
  dot_S10000x128_S128x128_S10000x128_1_0_0_1_n_n_wf : DotDims.WF S10000x128 S128x128 S10000x128 [1] [0] [0] [1] [] []
  gather_S50000x128_S640000x1_S640000x128_1_0_n_n_0_1_1128_wf : GatherDims.WF S50000x128 S640000x1 S640000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S640000x128.size a
  hwx1_0 : ∀ i : grid1.Coords, EltTy.bits .f32 = 32 ∨ (Rect.block (s := S640000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S640000x128.size a
  hwx1_1 : ∀ i : grid1.Coords, EltTy.bits .f32 = 32 ∨ (Rect.block (s := S640000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S640000x128.size a
  hwx1_5 : ∀ i : grid1.Coords, EltTy.bits .f32 = 32 ∨ (Rect.block (s := S640000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S640000x128.size a
  hwx2_0 : ∀ i : grid2.Coords, EltTy.bits .f32 = 32 ∨ (Rect.block (s := S640000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S640000x128.size a
  hwx2_5 : ∀ i : grid2.Coords, EltTy.bits .f32 = 32 ∨ (Rect.block (s := S640000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S640000x128.size a
  hwx3_0 : ∀ i : grid3.Coords, EltTy.bits .f32 = 32 ∨ (Rect.block (s := S640000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S640000x128.size a
  hwx3_3 : ∀ i : grid3.Coords, EltTy.bits .f32 = 32 ∨ (Rect.block (s := S640000x128) S10000x128.size (cc3_transform_3 i) (hinb3_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v14_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v31_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v31_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x128 : Shape := ⟨2, ![640000, 128]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x256 : Shape := ⟨2, ![640000, 256]⟩
abbrev S256x128 : Shape := ⟨2, ![256, 128]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S2x640000, .i32⟩
  | 2 => ⟨S640000x128, .f32⟩
  | 3 => ⟨S128x128, .f32⟩
  | 4 => ⟨S128, .f32⟩
  | 5 => ⟨S128x256, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S50000x128, .f32⟩
  | 15 => ⟨S1x128, .f32⟩
  | 16 => ⟨S50000x128, .f32⟩
  | 17 => ⟨S50000x128, .f32⟩
  | 18 => ⟨S1x640000, .i32⟩
  | 19 => ⟨S640000, .i32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S1x640000, .i32⟩
  | 30 => ⟨S640000, .i32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x128, .f32⟩
  | 40 => ⟨S640000x128, .f32⟩
  | 41 => ⟨S640000x256, .f32⟩
  | 42 => ⟨S256x128, .f32⟩
  | 43 => ⟨S640000x128, .f32⟩
  | 44 => ⟨S1x128, .f32⟩
  | 45 => ⟨S640000x128, .f32⟩
  | 46 => ⟨S640000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S640000x128, .f32⟩
  | 60 => ⟨S640000x128, .f32⟩
  | 61 => ⟨S640000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S640000x128, .f32⟩
  | 77 => ⟨S640000x128, .f32⟩
  | 78 => ⟨S_, .f32⟩
  | 79 => ⟨S128, .f32⟩
  | 80 => ⟨S128, .f32⟩
  | 81 => ⟨S128, .f32⟩
  | 82 => ⟨S1x128, .f32⟩
  | 83 => ⟨S640000x128, .f32⟩
  | 84 => ⟨S640000x128, .f32⟩
  | 85 => ⟨S1x128, .f32⟩
  | 86 => ⟨S640000x128, .f32⟩
  | 87 => ⟨S640000x128, .f32⟩
  | 88 => ⟨S1x128, .f32⟩
  | 89 => ⟨S640000x128, .f32⟩
  | 90 => ⟨S640000x128, .f32⟩
  | 91 => ⟨S_, .f32⟩
  | 92 => ⟨S640000x128, .f32⟩
  | 93 => ⟨S640000x128, .f32⟩
  | 94 => ⟨S128x128, .f32⟩
  | 95 => ⟨S640000x128, .f32⟩
  | 96 => ⟨S1x128, .f32⟩
  | 97 => ⟨S640000x128, .f32⟩
  | 98 => ⟨S640000x128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S640000x128, .f32⟩
  | 112 => ⟨S640000x128, .f32⟩
  | 113 => ⟨S640000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S50000x128, .f32⟩

abbrev hbmTy0_1 (i : Nat) : BufTy := match i % 128 with
  | 0 => ⟨S640000x128, .f32⟩
  | 1 => ⟨S640000x128, .f32⟩
  | 2 => ⟨S_, .f32⟩
  | 3 => ⟨S128, .f32⟩
  | 4 => ⟨S128, .f32⟩
  | 5 => ⟨S128, .f32⟩
  | 6 => ⟨S1x128, .f32⟩
  | 7 => ⟨S640000x128, .f32⟩
  | 8 => ⟨S640000x128, .f32⟩
  | 9 => ⟨S1x128, .f32⟩
  | 10 => ⟨S640000x128, .f32⟩
  | 11 => ⟨S640000x128, .f32⟩
  | 12 => ⟨S1x128, .f32⟩
  | 13 => ⟨S640000x128, .f32⟩
  | 14 => ⟨S640000x128, .f32⟩
  | 15 => ⟨S_, .f32⟩
  | 16 => ⟨S640000x128, .f32⟩
  | 17 => ⟨S640000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_5 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_call1_cst : Ref sig .tc := ⟨.hbm, 91, rfl⟩
abbrev main_call1_v0 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_6 : Ref sig .tc := ⟨.hbm, 99, rfl⟩
abbrev main_v55 : Ref sig .tc := ⟨.hbm, 100, rfl⟩
abbrev main_cst_7 : Ref sig .tc := ⟨.hbm, 101, rfl⟩
abbrev main_v56 : Ref sig .tc := ⟨.hbm, 102, rfl⟩
abbrev main_v57 : Ref sig .tc := ⟨.hbm, 103, rfl⟩
abbrev main_c_8 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_cst_2 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_cst_3 : Ref sig .tc := ⟨.hbm, 121, rfl⟩
abbrev main_call2_v12 : Ref sig .tc := ⟨.hbm, 122, rfl⟩
abbrev main_call2_cst_4 : Ref sig .tc := ⟨.hbm, 123, rfl⟩
abbrev main_call2_call0_v0 : Ref sig .tc := ⟨.hbm, 124, rfl⟩
abbrev main_call2_call0_v1 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_9 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_call3_cst : Ref sig .tc := ⟨.hbm, 143, rfl⟩
abbrev main_call3_v0 : Ref sig .tc := ⟨.hbm, 144, rfl⟩
abbrev main_v74 : Ref sig .tc := ⟨.hbm, 145, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_1_0 : S2x640000.Slices ![1, 0] S1x640000
  concatenates_S640000x128_S640000x128_S640000x256_d1 : Shape.Concatenates [S640000x128, S640000x128] S640000x256 1
  transposes_S128x256_S256x128_1_0 : S128x256.Transposes [1, 0] S256x128
  bcast_S1x128_S640000x128_0_1 : S1x128.BroadcastsInDim S640000x128 (![0, 1] : Fin 2 → Fin S640000x128.rank)
  reducesTo_S640000x128_S128_d0 : S640000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S640000x128 : S_.BroadcastsInDim S640000x128 (![] : Fin 0 → Fin S640000x128.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  dot_S640000x256_S256x128_S640000x128_1_0_0_1_n_n_wf : DotDims.WF S640000x256 S256x128 S640000x128 [1] [0] [0] [1] [] []
  dot_S640000x128_S128x128_S640000x128_1_0_0_1_n_n_wf : DotDims.WF S640000x128 S128x128 S640000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf

class Facts : Prop extends Facts₀ where

variable [Facts]
-- ==== Proof.K.Reg0.lean ====
import proofs.«426623_j69028714381392_1_alg».proof.Proof.Gen.Kernel.Launch
import proofs.«426623_j69028714381392_1_alg».proof.Proof.Gen.Kernel.Skeleton
import proofs.«426623_j69028714381392_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

private theorem offz : (![0, 0] : Fin 2 → ℕ) = fun _ => 0 := funext fun a => by fin_cases a <;> rfl

set_option maxHeartbeats 1000000 in
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__lin_kernel i arg1 harg1 arg2 harg2 arg3 harg3 arg4 harg4) K := by
  simp only [cc0__lin_kernel_eq_skeleton]; unfold cc0__lin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ fun y => ⟨_, List.mem_singleton_self _, View.mem_set_unit_zero offz inb_S10000x128_S10000x128_0_0 y⟩, View.canon_unit_zero offz]
  rw [View.readAt_eq_ld, View.readAt_eq_ld, View.readAt_eq_ld, View.ld_unit_zero (S := S10000x128) offz, View.ld_unit_zero (S := S128x128) offz, View.ld_unit_zero (S := S1x128) offz]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = k0_pay1 (iblk0 V c 0 t) (iblk0 V c 1 t) (iblk0 V c 2 t) := rfl

theorem before0 (c : Dev nD) (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;>
    exact fun d => Eq.trans (Dat.before_in_eq_fetched _ _ rfl (fun _ => rfl) (fun _ _ _ => rfl) (fun _ => rfl) t d) rfl

theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d))
      ∗ (∃ d, owns (c : Thread nD τ) (st0_2 t) fullShare ((dat0 V c).before 2 t d)) ∗ (∃ d, owns (c : Thread nD τ) (st0_3 t) fullShare ((dat0 V c).before 3 t d)))
    ⊢ wp frame (wpE (defs₀ (F := F)) Variants.none c none) Set.univ (bodyAt0 t) (fun _ => iprop((dat0 V c).Φ t.castSucc
      ∗ (dat0 V c).owesAt () t.castSucc ∗ owns (c : Thread nD τ) (st0_0 t) fullShare (iblk0 V c 0 t) ∗ owns (c : Thread nD τ) (st0_1 t) fullShare (iblk0 V c 1 t)
      ∗ owns (c : Thread nD τ) (st0_2 t) fullShare (iblk0 V c 2 t) ∗ owns (c : Thread nD τ) (st0_3 t) fullShare (k0_pay1 (iblk0 V c 0 t) (iblk0 V c 1 t) (iblk0 V c 2 t))))
  unfold bodyAt0
  simp only [(before0 V c t).1, (before0 V c t).2.1, (before0 V c t).2.2]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  iframe

end Cert.Kernel.Hand

end
-- ==== Proof.K.Reg1.lean ====
import proofs.«426623_j69028714381392_1_alg».proof.Proof.Gen.Kernel.Launch
import proofs.«426623_j69028714381392_1_alg».proof.Proof.Gen.Kernel.Skeleton
import proofs.«426623_j69028714381392_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val = 0 := by decide +kernel
abbrev cond1_1 (i : grid1.Coords) : Prop := k1_cond2 i = 1#1
theorem hcond1_1 : ∀ t : Fin cfg1.N, cond1_1 (grid1.coords t) ↔ t.val = 127 := by decide +kernel

theorem live1 : ∀ (t : Fin cfg1.N) (w : Fin cfg1.W), w.val < 6 ∨ t.val = 127 → cfg1.idle w (grid1.coords t) = false := by decide +kernel
theorem idle1 : ∀ (t : Fin cfg1.N) (w : Fin cfg1.W), 6 ≤ w.val → t.val ≠ 127 → cfg1.idle w (grid1.coords t) = true ∧ (cfg1.win w).flush t = false := by decide +kernel

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S1x128 .f32 × Vec F S1x128 .f32
  | 0, h => (k1_pay5 (iblk1 V c 0 ⟨0, h⟩) (iblk1 V c 1 ⟨0, h⟩) (iblk1 V c 2 ⟨0, h⟩) (iblk1 V c 3 ⟨0, h⟩) (iblk1 V c 4 ⟨0, h⟩) k1_pay2,
      k1_pay1 k1_pay3 (k1_pay6 (iblk1 V c 0 ⟨0, h⟩) (iblk1 V c 1 ⟨0, h⟩) (iblk1 V c 2 ⟨0, h⟩) (iblk1 V c 3 ⟨0, h⟩) (iblk1 V c 4 ⟨0, h⟩)))
  | n + 1, h => (k1_pay5 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (acc1 c n (Nat.lt_of_succ_lt h)).1,
      k1_pay1 (acc1 c n (Nat.lt_of_succ_lt h)).2 (k1_pay6 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)))

-- One point's update of the two running sums `s`, which the first point (`p`) takes from zero.
def step1 (p : Prop) [Decidable p] (x0 x1 : Vec F S5000x128 .f32) (x2 x3 : Vec F S128x128 .f32) (x4 : Vec F S1x128 .f32) (s : Vec F S1x128 .f32 × Vec F S1x128 .f32) : Vec F S1x128 .f32 × Vec F S1x128 .f32 :=
  (k1_pay5 x0 x1 x2 x3 x4 (if p then k1_pay2 else s.1), k1_pay1 (if p then k1_pay3 else s.2) (k1_pay6 x0 x1 x2 x3 x4))

theorem acc1_eq (c : Dev nD) (t : Fin cfg1.N) (s : Vec F S1x128 .f32 × Vec F S1x128 .f32) (hs : ∀ m h, t.val = m + 1 → s = acc1 V c m h) :
    acc1 V c t.val t.isLt = step1 (t.val = 0) (iblk1 V c 0 t) (iblk1 V c 1 t) (iblk1 V c 2 t) (iblk1 V c 3 t) (iblk1 V c 4 t) s := by
  obtain ⟨n, hn⟩ := t
  cases n with
  | zero => rfl
  | succ n => rw [hs n _ rfl]; rfl

abbrev scM1_0 : Memref sig .tc .vmem S1x128 .f32 := Memref.whole cc1_scratch0
abbrev scM1_1 : Memref sig .tc .vmem S1x128 .f32 := Memref.whole cc1_scratch1

-- The invariant before point `n`: the carried pair is the sums over the points before it (before the first, any pair).
def Phi1 (c : Dev nD) (n : ℕ) : sProp 𝕄 :=
  iprop(∃ s : Vec F S1x128 .f32 × Vec F S1x128 .f32, ⌜∀ m h, n = m + 1 → s = acc1 V c m h⌝ ∗ owns c scM1_0 fullShare s.1 ∗ owns c scM1_1 fullShare s.2
    ∗ Pipeline.scopedRestBut spec1 c [cc1_scratch0, cc1_scratch1] ∗ (∃ r, prngReg c r))

theorem PhiA1_eq (c : Dev nD) :
    (Pipeline.ΦA spec1 c : sProp 𝕄)
      = iprop(iprop(iprop((∃ d, owns c scM1_0 fullShare d) ∗ (∃ d, owns c scM1_1 fullShare d))
          ∗ Pipeline.scopedRestBut spec1 c [cc1_scratch0, cc1_scratch1]) ∗ (∃ r, prngReg c r)) := by
  unfold Pipeline.ΦA; rw [scopedRest1_split]; simp only [scM1_0, scM1_1, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay4 (iblk1 V c 0 t) (iblk1 V c 1 t) (iblk1 V c 2 t) (iblk1 V c 3 t) (iblk1 V c 4 t)
    | ⟨6, _⟩ => (acc1 V c t.val t.isLt).1
    | ⟨7, _⟩ => (acc1 V c t.val t.isLt).2
  Φ t := Phi1 V c t.val
  q _ := fullShare
  owed _ := 0

theorem A_eq1 (c : Dev nD) (w : Fin cfg1.W) : (dat1 V c).A w = V c (Pipeline.arrRef spec1 w) := rfl
theorem after1_5 (c : Dev nD) (t : Fin cfg1.N) : (dat1 V c).after 5 t = k1_pay4 (iblk1 V c 0 t) (iblk1 V c 1 t) (iblk1 V c 2 t) (iblk1 V c 3 t) (iblk1 V c 4 t) := rfl
theorem after1_6 (c : Dev nD) (t : Fin cfg1.N) : (dat1 V c).after 6 t = (acc1 V c t.val t.isLt).1 := rfl
theorem after1_7 (c : Dev nD) (t : Fin cfg1.N) : (dat1 V c).after 7 t = (acc1 V c t.val t.isLt).2 := rfl

theorem before1 (c : Dev nD) : ∀ w : Fin cfg1.W, w.val < 5 → ∀ t d, (dat1 V c).before w t d = (dat1 V c).after w t
  | ⟨0, _⟩, _ | ⟨1, _⟩, _ | ⟨2, _⟩, _ | ⟨3, _⟩, _ | ⟨4, _⟩, _ => (dat1 V c).before_in_eq_fetched _ rfl (fun _ => rfl) (fun _ _ _ => rfl) (fun _ => rfl)
  | ⟨n + 5, _⟩, h => absurd h (Nat.not_lt.mpr (Nat.le_add_left 5 n))

theorem leaves1 (c : Dev nD) (w : Fin cfg1.W) (t : Fin cfg1.N) (h : w.val < 6 ∨ t.val = 127) :
    (dat1 V c).leavesExact w t = owns c ((cfg1.win w).stage (cfg1.slots t w)) fullShare ((dat1 V c).after w t) := by
  unfold Dat.leavesExact; rw [live1 t w h]

theorem r1_hz : (![0, 0] : Fin 2 → Nat) = fun _ => 0 := funext fun a => by fin_cases a <;> rfl
theorem r1_read_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h]

-- The body's effect, given the truth values `p0`, `p1` of its two branch conditions (never both true).
set_option maxHeartbeats 1000000 in
theorem run1 (c : Dev nD) (i : grid1.Coords) (p0 p1 : Prop) [Decidable p0] [Decidable p1] (e0 : cond1_0 i ↔ p0) (e1 : cond1_1 i ↔ p1) (hne : p0 → ¬p1)
    {a1 a2 a6 : Memref sig .tc .vmem S5000x128 .f32} {a3 a4 : Memref sig .tc .vmem S128x128 .f32} {a5 a7 a8 a9 a10 : Memref sig .tc .vmem S1x128 .f32}
    {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole}
    (x0 x1 x5 : Vec F S5000x128 .f32) (x2 x3 : Vec F S128x128 .f32) (x4 x6 x7 x8 x9 : Vec F S1x128 .f32) (E : Set ℕ) (K : PUnit → sProp 𝕄) :
    iprop(owns c a1 fullShare x0 ∗ owns c a2 fullShare x1 ∗ owns c a3 fullShare x2 ∗ owns c a4 fullShare x3 ∗ owns c a5 fullShare x4
        ∗ owns c a6 fullShare x5 ∗ owns c a7 fullShare x6 ∗ owns c a8 fullShare x7 ∗ owns c a9 fullShare x8 ∗ owns c a10 fullShare x9
        ∗ (iprop(owns c a1 fullShare x0 ∗ owns c a2 fullShare x1 ∗ owns c a3 fullShare x2 ∗ owns c a4 fullShare x3 ∗ owns c a5 fullShare x4
            ∗ owns c a6 fullShare (k1_pay4 x0 x1 x2 x3 x4) ∗ owns c a7 fullShare (if p1 then (step1 p0 x0 x1 x2 x3 x4 (x8, x9)).1 else x6) ∗ owns c a8 fullShare (if p1 then (step1 p0 x0 x1 x2 x3 x4 (x8, x9)).2 else x7)
            ∗ owns c a9 fullShare (step1 p0 x0 x1 x2 x3 x4 (x8, x9)).1 ∗ owns c a10 fullShare (step1 p0 x0 x1 x2 x3 x4 (x8, x9)).2) -∗ K ⟨⟩))
      ⊢ wp frame (wpE (defs₀ (F := F)) Variants.none c none) E (cc1__mlp1_kernel i a1 h1 a2 h2 a3 h3 a4 h4 a5 h5 a6 h6 a7 h7 a8 h8 a9 h9 a10 h10) K := by
  by_cases hp0 : p0 <;> by_cases hp1 : p1 <;> first | exact absurd hp1 (hne hp0) | simp only [step1, hp0, hp1, ↓reduceIte]
  all_goals
    unfold owns
    iintro ⟨⟨%f1, %hf1, H1⟩, ⟨%f2, %hf2, H2⟩, ⟨%f3, %hf3, H3⟩, ⟨%f4, %hf4, H4⟩, ⟨%f5, %hf5, H5⟩, ⟨%f6, -, H6⟩, ⟨%f7, %hf7, H7⟩, ⟨%f8, %hf8, H8⟩, ⟨%f9, %hf9, H9⟩, ⟨%f10, %hf10, H10⟩, Hk⟩
    simp only [cc1__mlp1_kernel_eq_skeleton]; unfold cc1__mlp1_kernel_skel
    sl_exec (disch := first | sl_exact (e0.mpr hp0) | sl_exact (e1.mpr hp1) | sl_exact (mt e0.mp hp0) | sl_exact (mt e1.mp hp1))
    sl_step
    iapply Hk
    (isplitl [H1]; swap); (isplitl [H2]; swap); (isplitl [H3]; swap); (isplitl [H4]; swap); (isplitl [H5]; swap); (isplitl [H6]; swap); (isplitl [H7]; swap); (isplitl [H8]; swap); (isplitl [H9]; swap)
    all_goals
      iexists _; isplitr; swap; iassumption
      ipureintro
      first
        | try sl_unfold_words
          refine (r1_read_last _ _ r1_hz _ _ _).trans ?_
          simp only [View.readCov_unit_zero (S := S1x128) _ r1_hz, View.readAt_eq_ld, hf1, hf2, hf3, hf4, hf5, hf9, hf10, View.ld_unit_zero (S := S5000x128) r1_hz, View.ld_unit_zero (S := S128x128) r1_hz, View.ld_unit_zero (S := S1x128) r1_hz]
        | assumption

theorem Phi1_eq (c : Dev nD) (u : Fin (cfg1.N + 1)) : (dat1 V c).Φ u = Phi1 V c u.val := rfl

def pre1 (c : Dev nD) (t : Fin cfg1.N) (w : Fin cfg1.W) : sProp 𝕄 :=
  iprop(∃ d, owns c ((cfg1.win w).stage (cfg1.slots t w)) fullShare ((dat1 V c).before w t d))

theorem sound_body1 (c : Dev nD) (t : Fin cfg1.N) :
    iprop((dat1 V c).Φ t.castSucc ∗ (dat1 V c).owesAt () t.castSucc ∗ pre1 V c t 0 ∗ pre1 V c t 1 ∗ pre1 V c t 2 ∗ pre1 V c t 3 ∗ pre1 V c t 4 ∗ pre1 V c t 5 ∗ pre1 V c t 6 ∗ pre1 V c t 7)
      ⊢ wp frame (wpE (defs₀ (F := F)) Variants.none c none) Set.univ (bodyAt1 t) fun _ =>
        iprop((dat1 V c).Φ t.succ ∗ (dat1 V c).owesAt () t.succ ∗ (dat1 V c).leavesExact 0 t ∗ (dat1 V c).leavesExact 1 t ∗ (dat1 V c).leavesExact 2 t ∗ (dat1 V c).leavesExact 3 t
          ∗ (dat1 V c).leavesExact 4 t ∗ (dat1 V c).leavesExact 5 t ∗ (dat1 V c).leavesExact 6 t ∗ (dat1 V c).leavesExact 7 t) := by
  unfold pre1
  simp only [before1 V c 0 (by decide), before1 V c 1 (by decide), before1 V c 2 (by decide), before1 V c 3 (by decide), before1 V c 4 (by decide)]
  rw [leaves1 V c 0 t (.inl (by decide)), leaves1 V c 1 t (.inl (by decide)), leaves1 V c 2 t (.inl (by decide)), leaves1 V c 3 t (.inl (by decide)), leaves1 V c 4 t (.inl (by decide)), leaves1 V c 5 t (.inl (by decide)),
    Phi1_eq, Phi1_eq]
  unfold Phi1
  iintro ⟨⟨%s, %hs, HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1 c (grid1.coords t) (t.val = 0) (t.val = 127) (hcond1_0 t) (hcond1_1 t) (fun h0 h1 => by omega) (a1 := st1_0 t) (a2 := st1_1 t) (a3 := st1_2 t) (a4 := st1_3 t) (a5 := st1_4 t) (a6 := st1_5 t) (a7 := st1_6 t) (a8 := st1_7 t)
    ((dat1 V c).after 0 t) ((dat1 V c).after 1 t) _ ((dat1 V c).after 2 t) ((dat1 V c).after 3 t) ((dat1 V c).after 4 t) ((dat1 V c).before 6 t d6) ((dat1 V c).before 7 t d7) s.1 s.2 Set.univ _)
  iframe H0 H1 H2 H3 H4 H5 H6 H7 HS0 HS1
  iintro ⟨H0, H1, H2, H3, H4, H5, H6, H7, HS0, HS1⟩
  isplitl [HS0 HS1 Hr Hg]
  · iexists _; iframe; ipureintro; intro m h e; cases e; exact (acc1_eq V c t s hs).symm
  isplitl [Ho]; · iexact Ho
  iframe H0 H1 H2 H3 H4
  isplitl [H5]; · iexact H5
  by_cases h1 : t.val = 127
  · rw [leaves1 V c 6 t (.inr h1), leaves1 V c 7 t (.inr h1), after1_6, after1_7, acc1_eq V c t s hs]
    simp only [if_pos h1]
    isplitl [H6]; · iexact H6
    iexact H7
  · rw [Dat.leavesExact_idle (dat1 V c) 6 t (idle1 t 6 (by decide) h1).1 (idle1 t 6 (by decide) h1).2, Dat.leavesExact_idle (dat1 V c) 7 t (idle1 t 7 (by decide) h1).1 (idle1 t 7 (by decide) h1).2]
    simp only [if_neg h1]
    isplitl [H6]; · iexists _; iexact H6
    iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq, Phi1_eq]; unfold Phi1
  iintro ⟨⟨⟨⟨%d0, H0⟩, ⟨%d1, H1⟩⟩, Hr⟩, Hg⟩
  iexists (d0, d1); iframe
  ipureintro; exact fun m _ e => absurd e (Nat.succ_ne_zero m).symm

theorem hout1 (c : Dev nD) : (dat1 V c).Φ (Fin.last cfg1.N) ⊢ Pipeline.ΦA spec1 c := by
  rw [PhiA1_eq, Phi1_eq]; unfold Phi1
  iintro ⟨%s, -, H0, H1, Hr, Hg⟩
  iframe Hr Hg
  isplitl [H0] <;> iexists _ <;> iassumption

end Cert.Kernel.Hand
end
-- ==== Proof.K.Reg2.lean ====
import proofs.«426623_j69028714381392_1_alg».proof.Proof.Gen.Kernel.Launch
import proofs.«426623_j69028714381392_1_alg».proof.Proof.Gen.Kernel.Skeleton
import proofs.«426623_j69028714381392_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1
theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 127 :=
  (by decide +kernel : ∀ t : Fin grid2.N, cond2_1 (grid2.coords t) ↔ t.val = 127)

theorem r2_zero_off : (![0, 0] : Fin 2 → ℕ) = fun _ => 0 := by
  funext a; fin_cases a <;> rfl

theorem owns_unread {d : Dev nD} {sp : Space} {s : Shape} {e : EltTy} {m : Memref sig .tc sp s e} (h : m.IsWhole) (X : s.Idx → Elt F e) :
    (owns d.tc m fullShare X : sProp 𝕄) = (m.view.loc d.tc ↦[m.view.set]{fullShare} h.unread X) := by
  have h₁ : (owns d.tc m fullShare X : sProp 𝕄) ⊢ (m.view.loc d.tc ↦[m.view.set]{fullShare} h.unread X) := by
    unfold owns; iintro ⟨%g, %hg, H⟩; obtain rfl := h.eq_unread hg; iexact H
  exact BI.equiv_iff.mp ⟨h₁, (owns_intro d.tc m fullShare (h.unread X)).trans (by rw [h.read_unread])⟩

theorem r2_put {d : Dev nD} {sp : Space} {s : Shape} {e : EltTy} {m : Memref sig .tc sp s e} (h : m.IsWhole) (f : m.view.ty.Contents (Elt F)) (X : s.Idx → Elt F e) :
    iprop(⌜m.view.read (Elt F) f = X⌝ ∗ (m.view.loc d.tc ↦[m.view.set]{fullShare} f)) ⊢ (m.view.loc d.tc ↦[m.view.set]{fullShare} h.unread X : sProp 𝕄) := by
  iintro ⟨%hf, H⟩; obtain rfl := h.eq_unread hf; iexact H

theorem r2_ld {sz : Fin 2 → ℕ} {e : EltTy} {m : Memref sig .tc .vmem ⟨2, sz⟩ e} (h : m.IsWhole) (X : Shape.Idx ⟨2, sz⟩ → Elt F e)
    (inb : ∀ a, (![0, 0] : Fin 2 → ℕ) a + sz a ≤ sz a) :
    View.readAt (Elt F) m.view (Rect.unit (s := ⟨2, sz⟩) ![0, 0] sz inb).toLoadRect (h.unread X) = X := by
  rw [View.readAt_eq_ld, h.read_unread, View.ld_unit_zero (S := ⟨2, sz⟩) r2_zero_off]

theorem r2_st0 {s : Shape} {e : EltTy} (v : View sig .tc .vmem s e) (f : v.ty.Contents (Elt F)) {off : Fin s.rank → ℕ} (hoff : off = fun _ => 0)
    (inb : ∀ a, off a + s.size a ≤ s.size a) (w : s.Idx → Elt F e) (L : List (View.Piece (Elt F) s e)) :
    v.read (Elt F) (v.writes (Elt F) f (⟨Rect.unit off s.size inb, w⟩ :: L)) = w := by
  rw [View.read_writes_eq_canon _ _ _ (fun y => ⟨_, List.mem_cons_self, View.mem_set_unit_zero hoff inb y⟩), View.canon_cons_unit_zero hoff]

theorem r2_st {sz : Fin 2 → ℕ} {e : EltTy} (v : View sig .tc .vmem ⟨2, sz⟩ e) (f : v.ty.Contents (Elt F)) (inb : ∀ a, (![0, 0] : Fin 2 → ℕ) a + sz a ≤ sz a)
    (w : Shape.Idx ⟨2, sz⟩ → Elt F e) (L : List (View.Piece (Elt F) ⟨2, sz⟩ e)) :
    v.read (Elt F) (v.writes (Elt F) f (⟨Rect.unit (s := ⟨2, sz⟩) ![0, 0] sz inb, w⟩ :: L)) = w :=
  r2_st0 (s := ⟨2, sz⟩) v f r2_zero_off inb w L

theorem r2_cov {sz : Fin 2 → ℕ} {e : EltTy} (v : View sig .tc .vmem ⟨2, sz⟩ e) (inb : ∀ a, (![0, 0] : Fin 2 → ℕ) a + sz a ≤ sz a) (w : Shape.Idx ⟨2, sz⟩ → Elt F e) :
    v.readCov [(⟨Rect.unit (s := ⟨2, sz⟩) ![0, 0] sz inb, w⟩ : View.Piece (Elt F) ⟨2, sz⟩ e)] (Rect.unit (s := ⟨2, sz⟩) ![0, 0] sz inb).toLoadRect = w :=
  View.readCov_unit_zero (S := ⟨2, sz⟩) v r2_zero_off inb w

section
variable (c : Dev nD) {i : grid2.Coords} {arg1 : Memref sig .tc .vmem S5000x128 .f32} {harg1 : arg1.IsWhole} {arg2 : Memref sig .tc .vmem S1x128 .f32} {harg2 : arg2.IsWhole} {arg3 : Memref sig .tc .vmem S1x128 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S5000x128 .f32} {harg6 : arg6.IsWhole} {arg7 : Memref sig .tc .vmem S1x128 .f32} {harg7 : arg7.IsWhole} {arg8 : Memref sig .tc .vmem S1x128 .f32} {harg8 : arg8.IsWhole} {arg9 : Memref sig .tc .vmem S1x128 .f32} {harg9 : arg9.IsWhole} {arg10 : Memref sig .tc .vmem S1x128 .f32} {harg10 : arg10.IsWhole}
  {x0 : Vec F S5000x128 .f32} {x1 x2 : Vec F S1x128 .f32} {x3 : Vec F S128x128 .f32} {x4 : Vec F S1x128 .f32} {x5 : Vec F S5000x128 .f32} {x6 x7 s0 s1 : Vec F S1x128 .f32}

set_option maxHeartbeats 1000000 in
theorem run2_A {E : Set ℕ} {K : PUnit → sProp 𝕄} (hc0 : cond2_0 i) (hc1 : ¬cond2_1 i) :
    iprop(owns c.tc arg1 fullShare x0 ∗ owns c.tc arg2 fullShare x1 ∗ owns c.tc arg3 fullShare x2 ∗ owns c.tc arg4 fullShare x3 ∗ owns c.tc arg5 fullShare x4
        ∗ owns c.tc arg6 fullShare x5 ∗ owns c.tc arg9 fullShare s0 ∗ owns c.tc arg10 fullShare s1
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k2_pay4 x0 x1 x2 x3 x4) ∗ owns c.tc arg9 fullShare (k2_pay5 x0 x1 x2 x3 x4 k2_pay2) ∗ owns c.tc arg10 fullShare (k2_pay1 (k2_pay4 x0 x1 x2 x3 x4) k2_pay3)) -∗ K ⟨⟩))
      ⊢ wp frame (wpE (defs₀ (F := F)) Variants.none c none) E (cc2__mlp2_kernel i arg1 harg1 arg2 harg2 arg3 harg3 arg4 harg4 arg5 harg5 arg6 harg6 arg7 harg7 arg8 harg8 arg9 harg9 arg10 harg10) K := by
  simp only [owns_unread harg1, owns_unread harg2, owns_unread harg3, owns_unread harg4, owns_unread harg5, owns_unread harg6, owns_unread harg9, owns_unread harg10]
  simp only [cc2__mlp2_kernel_eq_skeleton]; unfold cc2__mlp2_kernel_skel
  simp only [k2_part1_eq_skeleton]; unfold k2_part1_skel
  iintro ⟨H0, H1, H2, H3, H4, H5, HS0, HS1, Hk⟩
  sl_exec (disch := first | exact hc0 | exact hc1)
  sl_step
  iapply Hk
  iframe
  isplitl [H5]; · iapply r2_put harg6; iframe; ipureintro; simp only [r2_st, r2_ld]
  isplitl [HS0]; · iapply r2_put harg9; iframe; ipureintro; sl_unfold_run_names; simp only [r2_st, r2_cov, r2_ld]
  iapply r2_put harg10; iframe; ipureintro; sl_unfold_run_names; simp only [r2_st, r2_cov, r2_ld]

set_option maxHeartbeats 1000000 in
theorem run2_B {E : Set ℕ} {K : PUnit → sProp 𝕄} (hc0 : ¬cond2_0 i) (hc1 : ¬cond2_1 i) :
    iprop(owns c.tc arg1 fullShare x0 ∗ owns c.tc arg2 fullShare x1 ∗ owns c.tc arg3 fullShare x2 ∗ owns c.tc arg4 fullShare x3 ∗ owns c.tc arg5 fullShare x4
        ∗ owns c.tc arg6 fullShare x5 ∗ owns c.tc arg9 fullShare s0 ∗ owns c.tc arg10 fullShare s1
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k2_pay4 x0 x1 x2 x3 x4) ∗ owns c.tc arg9 fullShare (k2_pay5 x0 x1 x2 x3 x4 s0) ∗ owns c.tc arg10 fullShare (k2_pay1 (k2_pay4 x0 x1 x2 x3 x4) s1)) -∗ K ⟨⟩))
      ⊢ wp frame (wpE (defs₀ (F := F)) Variants.none c none) E (cc2__mlp2_kernel i arg1 harg1 arg2 harg2 arg3 harg3 arg4 harg4 arg5 harg5 arg6 harg6 arg7 harg7 arg8 harg8 arg9 harg9 arg10 harg10) K := by
  simp only [owns_unread harg1, owns_unread harg2, owns_unread harg3, owns_unread harg4, owns_unread harg5, owns_unread harg6, owns_unread harg9, owns_unread harg10]
  simp only [cc2__mlp2_kernel_eq_skeleton]; unfold cc2__mlp2_kernel_skel
  simp only [k2_part1_eq_skeleton]; unfold k2_part1_skel
  iintro ⟨H0, H1, H2, H3, H4, H5, HS0, HS1, Hk⟩
  sl_exec (disch := first | exact hc0 | exact hc1)
  sl_step
  iapply Hk
  iframe
  isplitl [H5]; · iapply r2_put harg6; iframe; ipureintro; simp only [r2_st, r2_ld]
  isplitl [HS0]; · iapply r2_put harg9; iframe; ipureintro; simp only [r2_st, r2_ld]
  iapply r2_put harg10; iframe; ipureintro; simp only [r2_st, r2_ld]

set_option maxHeartbeats 1000000 in
theorem run2_C {E : Set ℕ} {K : PUnit → sProp 𝕄} (hc0 : ¬cond2_0 i) (hc1 : cond2_1 i) :
    iprop(owns c.tc arg1 fullShare x0 ∗ owns c.tc arg2 fullShare x1 ∗ owns c.tc arg3 fullShare x2 ∗ owns c.tc arg4 fullShare x3 ∗ owns c.tc arg5 fullShare x4
        ∗ owns c.tc arg6 fullShare x5 ∗ owns c.tc arg7 fullShare x6 ∗ owns c.tc arg8 fullShare x7 ∗ owns c.tc arg9 fullShare s0 ∗ owns c.tc arg10 fullShare s1
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k2_pay4 x0 x1 x2 x3 x4) ∗ owns c.tc arg7 fullShare (k2_pay5 x0 x1 x2 x3 x4 s0) ∗ owns c.tc arg8 fullShare (k2_pay1 (k2_pay4 x0 x1 x2 x3 x4) s1)
            ∗ owns c.tc arg9 fullShare (k2_pay5 x0 x1 x2 x3 x4 s0) ∗ owns c.tc arg10 fullShare (k2_pay1 (k2_pay4 x0 x1 x2 x3 x4) s1)) -∗ K ⟨⟩))
      ⊢ wp frame (wpE (defs₀ (F := F)) Variants.none c none) E (cc2__mlp2_kernel i arg1 harg1 arg2 harg2 arg3 harg3 arg4 harg4 arg5 harg5 arg6 harg6 arg7 harg7 arg8 harg8 arg9 harg9 arg10 harg10) K := by
  simp only [owns_unread harg1, owns_unread harg2, owns_unread harg3, owns_unread harg4, owns_unread harg5, owns_unread harg6, owns_unread harg7, owns_unread harg8, owns_unread harg9, owns_unread harg10]
  simp only [cc2__mlp2_kernel_eq_skeleton]; unfold cc2__mlp2_kernel_skel
  simp only [k2_part1_eq_skeleton]; unfold k2_part1_skel
  iintro ⟨H0, H1, H2, H3, H4, H5, H6, H7, HS0, HS1, Hk⟩
  sl_exec (disch := first | exact hc0 | exact hc1)
  sl_step
  iapply Hk
  iframe
  isplitl [H5]; · iapply r2_put harg6; iframe; ipureintro; simp only [r2_st, r2_ld]
  isplitl [H6]; · iapply r2_put harg7; iframe; ipureintro; sl_unfold_run_names; simp only [r2_st, r2_cov, r2_ld]
  isplitl [H7]; · iapply r2_put harg8; iframe; ipureintro; sl_unfold_run_names; simp only [r2_st, r2_cov, r2_ld]
  isplitl [HS0]; · iapply r2_put harg9; iframe; ipureintro; sl_unfold_run_names; simp only [r2_st, r2_cov, r2_ld]
  iapply r2_put harg10; iframe; ipureintro; sl_unfold_run_names; simp only [r2_st, r2_cov, r2_ld]

end

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1x128 .f32 × Vec F S1x128 .f32
  | 0, h => (k2_pay5 (iblk2 V c 0 ⟨0, h⟩) (iblk2 V c 1 ⟨0, h⟩) (iblk2 V c 2 ⟨0, h⟩) (iblk2 V c 3 ⟨0, h⟩) (iblk2 V c 4 ⟨0, h⟩) k2_pay2,
      k2_pay1 (k2_pay4 (iblk2 V c 0 ⟨0, h⟩) (iblk2 V c 1 ⟨0, h⟩) (iblk2 V c 2 ⟨0, h⟩) (iblk2 V c 3 ⟨0, h⟩) (iblk2 V c 4 ⟨0, h⟩)) k2_pay3)
  | n + 1, h => (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (acc2 c n (Nat.lt_of_succ_lt h)).1,
      k2_pay1 (k2_pay4 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)) (acc2 c n (Nat.lt_of_succ_lt h)).2)

theorem acc2_first (c : Dev nD) (t : Fin cfg2.N) (hz : t.val = 0) :
    (acc2 V c t.val t.isLt).1 = k2_pay5 (iblk2 V c 0 t) (iblk2 V c 1 t) (iblk2 V c 2 t) (iblk2 V c 3 t) (iblk2 V c 4 t) k2_pay2 ∧ (acc2 V c t.val t.isLt).2 = k2_pay1 (k2_pay4 (iblk2 V c 0 t) (iblk2 V c 1 t) (iblk2 V c 2 t) (iblk2 V c 3 t) (iblk2 V c 4 t)) k2_pay3 := by
  obtain ⟨n, hn⟩ := t
  cases n with
  | zero => exact ⟨rfl, rfl⟩
  | succ n => exact absurd hz (Nat.succ_ne_zero n)

theorem acc2_pos (c : Dev nD) (t : Fin cfg2.N) (hz : t.val ≠ 0) :
    (acc2 V c t.val t.isLt).1 = k2_pay5 (iblk2 V c 0 t) (iblk2 V c 1 t) (iblk2 V c 2 t) (iblk2 V c 3 t) (iblk2 V c 4 t) (acc2 V c (t.val - 1) (Nat.lt_of_le_of_lt (Nat.sub_le _ _) t.isLt)).1
    ∧ (acc2 V c t.val t.isLt).2 = k2_pay1 (k2_pay4 (iblk2 V c 0 t) (iblk2 V c 1 t) (iblk2 V c 2 t) (iblk2 V c 3 t) (iblk2 V c 4 t)) (acc2 V c (t.val - 1) (Nat.lt_of_le_of_lt (Nat.sub_le _ _) t.isLt)).2 := by
  obtain ⟨n, hn⟩ := t
  cases n with
  | zero => exact absurd rfl hz
  | succ n => exact ⟨rfl, rfl⟩

abbrev scM2_0 : Memref sig .tc .vmem S1x128 .f32 := Memref.whole cc2_scratch0
abbrev scM2_1 : Memref sig .tc .vmem S1x128 .f32 := Memref.whole cc2_scratch1

theorem PhiA2_eq (c : Dev nD) :
    (Pipeline.ΦA spec2 c : sProp 𝕄)
      = iprop(iprop(iprop((∃ d, owns c.tc scM2_0 fullShare d) ∗ (∃ d, owns c.tc scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; rfl

-- the region invariant with the two accumulators at `a`
def inv2 (c : Dev nD) (a : Vec F S1x128 .f32 × Vec F S1x128 .f32) : sProp 𝕄 :=
  iprop(iprop(iprop(owns c.tc scM2_0 fullShare a.1 ∗ owns c.tc scM2_1 fullShare a.2)
    ∗ Pipeline.scopedRestBut spec2 c [cc2_scratch0, cc2_scratch1]) ∗ (∃ r, prngReg c r))

def Phi2 (c : Dev nD) : (n : ℕ) → n ≤ cfg2.N → sProp 𝕄
  | 0, _ => Pipeline.ΦA spec2 c
  | n + 1, hn => inv2 c (acc2 V c n hn)

theorem Phi2_zero (c : Dev nD) (n : ℕ) (h : n ≤ cfg2.N) (hz : n = 0) : Phi2 V c n h = Pipeline.ΦA spec2 c := by
  subst hz; rfl

theorem Phi2_pos (c : Dev nD) (n : ℕ) (h : n ≤ cfg2.N) (hz : n ≠ 0) : Phi2 V c n h = inv2 c (acc2 V c (n - 1) (by omega)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay4 (iblk2 V c 0 t) (iblk2 V c 1 t) (iblk2 V c 2 t) (iblk2 V c 3 t) (iblk2 V c 4 t)
    | ⟨6, _⟩ => (acc2 V c t.val t.isLt).1
    | ⟨7, _⟩ => (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay4 (iblk2 V c 0 t) (iblk2 V c 1 t) (iblk2 V c 2 t) (iblk2 V c 3 t) (iblk2 V c 4 t) := by dsimp only [dat2]
theorem after2_6 (c : Dev nD) (t : Fin cfg2.N) : (dat2 V c).after 6 t = (acc2 V c t.val t.isLt).1 := by dsimp only [dat2]
theorem after2_7 (c : Dev nD) (t : Fin cfg2.N) : (dat2 V c).after 7 t = (acc2 V c t.val t.isLt).2 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

theorem idle2 : ∀ t : Fin cfg2.N, ¬cond2_1 (grid2.coords t) → cfg2.idle 6 (grid2.coords t) = true ∧ cfg2.idle 7 (grid2.coords t) = true
    ∧ (cfg2.win 6).flush t = false ∧ (cfg2.win 7).flush t = false := by decide +kernel
theorem live2 : ∀ t : Fin cfg2.N, cond2_1 (grid2.coords t) → cfg2.idle 6 (grid2.coords t) = false ∧ cfg2.idle 7 (grid2.coords t) = false := by decide +kernel

theorem leaves2 (c : Dev nD) (w : Fin cfg2.W) (t : Fin cfg2.N) (h : cfg2.idle w (cfg2.grid.coords t) = false) :
    (dat2 V c).leavesExact w t = owns c.tc ((cfg2.win w).stage (cfg2.slots t w)) fullShare ((dat2 V c).after w t) := by
  unfold Dat.leavesExact; rw [h]

def bodyPre2 (c : Dev nD) (t : Fin cfg2.N) : sProp 𝕄 :=
  iprop((dat2 V c).Φ t.castSucc ∗ (dat2 V c).owesAt () t.castSucc
    ∗ bigSep Finset.univ fun w : Fin cfg2.W => iprop(∃ d, owns c.tc ((cfg2.win w).stage (cfg2.slots t w)) fullShare ((dat2 V c).before w t d)))

def bodyPost2 (c : Dev nD) (t : Fin cfg2.N) : sProp 𝕄 :=
  iprop((dat2 V c).Φ t.succ ∗ (dat2 V c).owesAt () t.succ ∗ bigSep Finset.univ fun w : Fin cfg2.W => (dat2 V c).leavesExact w t)

set_option maxHeartbeats 4800000 in
-- by cases on the point (first, last, between) the run of that case applies; the invariant lends the two accumulators
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [bigSep_W2, bigSep_W2]
  dsimp only
  simp only [before2_0, before2_1, before2_2, before2_3, before2_4]
  rw [show (dat2 V c).owesAt () t.succ = (dat2 V c).owesAt () t.castSucc from rfl,
    show (dat2 V c).Φ t.succ = inv2 c (acc2 V c t.val t.isLt) from rfl, Phi2_castSucc,
    leaves2 V c 0 t rfl, leaves2 V c 1 t rfl, leaves2 V c 2 t rfl, leaves2 V c 3 t rfl, leaves2 V c 4 t rfl, leaves2 V c 5 t rfl,
    after2_0, after2_1, after2_2, after2_3, after2_4, after2_5]
  by_cases h0 : t.val = 0
  · have hc0 := (hcond2_0 t).mpr h0
    have hc1 : ¬cond2_1 (grid2.coords t) := fun h => by have := (hcond2_1 t).mp h; omega
    rw [Dat.leavesExact_idle _ 6 t (idle2 t hc1).1 (idle2 t hc1).2.2.1, Dat.leavesExact_idle _ 7 t (idle2 t hc1).2.1 (idle2 t hc1).2.2.2,
      Phi2_zero V c _ _ h0, PhiA2_eq]
    unfold inv2
    rw [(acc2_first V c t h0).1, (acc2_first V c t h0).2]
    iintro ⟨⟨⟨⟨⟨%s0, HS0⟩, ⟨%s1, HS1⟩⟩, Hr⟩, Hg⟩, Ho, ⟨%d0, H0⟩, ⟨%d1, H1⟩, ⟨%d2, H2⟩, ⟨%d3, H3⟩, ⟨%d4, H4⟩, ⟨%d5, H5⟩, H6, H7⟩
    iapply (run2_A c hc0 hc1)
    iframe
    iintro ⟨H0, H1, H2, H3, H4, H5, HS0, HS1⟩
    iframe
  · have hc0 : ¬cond2_0 (grid2.coords t) := fun h => h0 ((hcond2_0 t).mp h)
    rw [Phi2_pos V c _ _ h0]
    by_cases h1 : t.val = 127
    · have hc1 := (hcond2_1 t).mpr h1
      rw [leaves2 V c 6 t (live2 t hc1).1, leaves2 V c 7 t (live2 t hc1).2, after2_6, after2_7]
      unfold inv2
      rw [(acc2_pos V c t h0).1, (acc2_pos V c t h0).2]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_C c hc0 hc1)
      iframe
      iintro ⟨H0, H1, H2, H3, H4, H5, H6, H7, HS0, HS1⟩
      iframe
    · have hc1 : ¬cond2_1 (grid2.coords t) := fun h => h1 ((hcond2_1 t).mp h)
      rw [Dat.leavesExact_idle _ 6 t (idle2 t hc1).1 (idle2 t hc1).2.2.1, Dat.leavesExact_idle _ 7 t (idle2 t hc1).2.1 (idle2 t hc1).2.2.2]
      unfold inv2
      rw [(acc2_pos V c t h0).1, (acc2_pos V c t h0).2]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, H6, H7⟩
      iapply (run2_B c hc0 hc1)
      iframe
      iintro ⟨H0, H1, H2, H3, H4, H5, HS0, HS1⟩
      iframe

theorem body_obligation2 (c : Dev nD) : BodyObligation (dat2 (F := F) V c) (defs₀ (F := F)) Variants.none () Set.univ := fun t => sound_body2 V c t

theorem hin2 (c : Dev nD) : Pipeline.ΦA spec2 c ⊢ (dat2 V c).Φ 0 := by
  rw [show (dat2 V c).Φ 0 = Pipeline.ΦA spec2 c from rfl]

-- after the last point the accumulators' contents are forgotten
theorem hout2 (c : Dev nD) : (dat2 V c).Φ (Fin.last cfg2.N) ⊢ Pipeline.ΦA spec2 c := by
  rw [show (dat2 V c).Φ (Fin.last cfg2.N) = inv2 c (acc2 V c 127 (by decide)) from rfl, PhiA2_eq]
  unfold inv2
  iintro ⟨⟨⟨HS0, HS1⟩, Hr⟩, Hg⟩
  iframe
  isplitl [HS0]; · iexists _; iexact HS0
  iexists _; iexact HS1

end Cert.Kernel.Hand
end
-- ==== Proof.K.Reg3.lean ====
import proofs.«426623_j69028714381392_1_alg».proof.Proof.Gen.Kernel.Launch
import proofs.«426623_j69028714381392_1_alg».proof.Proof.Gen.Kernel.Skeleton
import proofs.«426623_j69028714381392_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

private theorem offz : (![0, 0] : Fin 2 → ℕ) = fun _ => 0 := funext fun a => by fin_cases a <;> rfl

set_option maxHeartbeats 1000000 in
theorem sound_kernel3 (c : Dev nD) (E : Set ℕ) (i : grid3.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay1 x0 x1 x2)) -∗ K ⟨⟩))
      ⊢ wp frame (wpE (defs₀ (F := F)) Variants.none c none) E (cc3__finalize_kernel i arg1 harg1 arg2 harg2 arg3 harg3 arg4 harg4) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ fun y => ⟨_, List.mem_singleton_self _, View.mem_set_unit_zero offz inb_S10000x128_S10000x128_0_0 y⟩, View.canon_unit_zero offz]
  rw [View.readAt_eq_ld, View.readAt_eq_ld, View.readAt_eq_ld, View.ld_unit_zero (S := S10000x128) offz, View.ld_unit_zero (S := S1x128) offz, View.ld_unit_zero (S := S1x128) offz]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = k3_pay1 (iblk3 V c 0 t) (iblk3 V c 1 t) (iblk3 V c 2 t) := rfl

theorem before3 (c : Dev nD) (t : Fin cfg3.N) : (∀ d, (dat3 V c).before 0 t d = iblk3 V c 0 t)
    ∧ (∀ d, (dat3 V c).before 1 t d = iblk3 V c 1 t) ∧ ∀ d, (dat3 V c).before 2 t d = iblk3 V c 2 t := by
  refine ⟨?_, ?_, ?_⟩ <;>
    exact fun d => Eq.trans (Dat.before_in_eq_fetched _ _ rfl (fun _ => rfl) (fun _ _ _ => rfl) (fun _ => rfl) t d) rfl

theorem body_obligation3 (c : Dev nD) : BodyObligation (dat3 (F := F) V c) (defs₀ (F := F)) Variants.none () Set.univ := fun t => by
  rw [bigSep_W3, bigSep_W3]
  show iprop((dat3 V c).Φ t.castSucc ∗ (dat3 V c).owesAt () t.castSucc
      ∗ (∃ d, owns (c : Thread nD τ) (st3_0 t) fullShare ((dat3 V c).before 0 t d)) ∗ (∃ d, owns (c : Thread nD τ) (st3_1 t) fullShare ((dat3 V c).before 1 t d))
      ∗ (∃ d, owns (c : Thread nD τ) (st3_2 t) fullShare ((dat3 V c).before 2 t d)) ∗ (∃ d, owns (c : Thread nD τ) (st3_3 t) fullShare ((dat3 V c).before 3 t d)))
    ⊢ wp frame (wpE (defs₀ (F := F)) Variants.none c none) Set.univ (bodyAt3 t) (fun _ => iprop((dat3 V c).Φ t.castSucc
      ∗ (dat3 V c).owesAt () t.castSucc ∗ owns (c : Thread nD τ) (st3_0 t) fullShare (iblk3 V c 0 t) ∗ owns (c : Thread nD τ) (st3_1 t) fullShare (iblk3 V c 1 t)
      ∗ owns (c : Thread nD τ) (st3_2 t) fullShare (iblk3 V c 2 t) ∗ owns (c : Thread nD τ) (st3_3 t) fullShare (k3_pay1 (iblk3 V c 0 t) (iblk3 V c 1 t) (iblk3 V c 2 t))))
  unfold bodyAt3
  simp only [(before3 V c t).1, (before3 V c t).2.1, (before3 V c t).2.2]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  iframe

end Cert.Kernel.Hand

end
-- ==== Proof.K.RunVals.lean ====
import proofs.«426623_j69028714381392_1_alg».proof.Proof.Gen.Kernel.Regions
import proofs.«426623_j69028714381392_1_alg».proof.Proof.K.Reg0
import proofs.«426623_j69028714381392_1_alg».proof.Proof.K.Reg1
import proofs.«426623_j69028714381392_1_alg».proof.Proof.K.Reg2
import proofs.«426623_j69028714381392_1_alg».proof.Proof.K.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (X : Dev nD → Valuation τ sig (Elt F)) : (c : Dev nD) → (b : Ref sig .tc) → Buf (Elt F) ((c : Thread nD τ).loc b) :=
  fun c b => X c b

def X1 (c : Dev nD) : Valuation τ sig (Elt F) := V1 m c
abbrev X1' := atTc (X1 m)
def o2 (c : Dev nD) : Buf (Elt F) ((c : Thread nD τ).loc main_v2) := (dat0 (X1' m) c).arrAt 3 cfg0.N
def X2 (c : Dev nD) : Valuation τ sig (Elt F) := Function.update (X1 m c) main_v2 (o2 m c)
abbrev X2' := atTc (X2 m)
def X3 (c : Dev nD) : Valuation τ sig (Elt F) := StableHlo.after hostOps1 (X2 m c)
def X4 (c : Dev nD) : Valuation τ sig (Elt F) := StableHlo.after hostOps1_1 (X3 m c)
def X5 (c : Dev nD) : Valuation τ sig (Elt F) := StableHlo.after hostOps1_2 (X4 m c)
def X6 (c : Dev nD) : Valuation τ sig (Elt F) := StableHlo.after hostOps1_3 (X5 m c)
abbrev X6' := atTc (X6 m)
def o7_0 (c : Dev nD) : Buf (Elt F) ((c : Thread nD τ).loc main_v14_0) := (dat1 (X6' m) c).arrAt 5 cfg1.N
def o7_1 (c : Dev nD) : Buf (Elt F) ((c : Thread nD τ).loc main_v14_1) := (dat1 (X6' m) c).arrAt 6 cfg1.N
def o7_2 (c : Dev nD) : Buf (Elt F) ((c : Thread nD τ).loc main_v14_2) := (dat1 (X6' m) c).arrAt 7 cfg1.N
def X7 (c : Dev nD) : Valuation τ sig (Elt F) :=
  Function.update (Function.update (Function.update (X6 m c) main_v14_0 (o7_0 m c)) main_v14_1 (o7_1 m c)) main_v14_2 (o7_2 m c)
abbrev X7' := atTc (X7 m)
def X8 (c : Dev nD) : Valuation τ sig (Elt F) := StableHlo.after hostOps2 (X7 m c)
abbrev X8' := atTc (X8 m)
def o9_0 (c : Dev nD) : Buf (Elt F) ((c : Thread nD τ).loc main_v31_0) := (dat2 (X8' m) c).arrAt 5 cfg2.N
def o9_1 (c : Dev nD) : Buf (Elt F) ((c : Thread nD τ).loc main_v31_1) := (dat2 (X8' m) c).arrAt 6 cfg2.N
def o9_2 (c : Dev nD) : Buf (Elt F) ((c : Thread nD τ).loc main_v31_2) := (dat2 (X8' m) c).arrAt 7 cfg2.N
def X9 (c : Dev nD) : Valuation τ sig (Elt F) :=
  Function.update (Function.update (Function.update (X8 m c) main_v31_0 (o9_0 m c)) main_v31_1 (o9_1 m c)) main_v31_2 (o9_2 m c)
abbrev X9' := atTc (X9 m)
def X10 (c : Dev nD) : Valuation τ sig (Elt F) := StableHlo.after hostOps3 (X9 m c)
abbrev X10' := atTc (X10 m)
def o11 (c : Dev nD) : Buf (Elt F) ((c : Thread nD τ).loc main_v46) := (dat3 (X10' m) c).arrAt 3 cfg3.N
def X11 (c : Dev nD) : Valuation τ sig (Elt F) := Function.update (X10 m c) main_v46 (o11 m c)
abbrev X11' := atTc (X11 m)

def outs : Outs (F := F) := fun J r c =>
  match J with
  | 2 => X2 m c r
  | 7 => X7 m c r
  | 9 => X9 m c r
  | _ => X11 m c r

theorem ne_dev {a b : Ref sig .tc} (h : a ≠ b) : (Proc.devRef .tc a : DevRef τ sig) ≠ Proc.devRef .tc b :=
  StableHlo.devRef_ne_of_ne h

theorem V1_eq (c : Dev nD) : V1 m c = X1 m c := rfl
theorem V2_eq (c : Dev nD) : V2 m (outs m) c = X2 m c := by
  show Function.update (V1 m c) main_v2 (X2 m c main_v2) = X2 m c
  rw [show X2 m c main_v2 = o2 m c from Function.update_self ..]; rfl
theorem V3_eq (c : Dev nD) : V3 m (outs m) c = X3 m c := congrArg (StableHlo.after hostOps1) (V2_eq m c)
theorem V4_eq (c : Dev nD) : V4 m (outs m) c = X4 m c := congrArg (StableHlo.after hostOps1_1) (V3_eq m c)
theorem V5_eq (c : Dev nD) : V5 m (outs m) c = X5 m c := congrArg (StableHlo.after hostOps1_2) (V4_eq m c)
theorem V6_eq (c : Dev nD) : V6 m (outs m) c = X6 m c := congrArg (StableHlo.after hostOps1_3) (V5_eq m c)
theorem X7_at0 (c : Dev nD) : X7 m c main_v14_0 = o7_0 m c := by
  unfold X7
  rw [Function.update_of_ne (ne_dev (by decide)), Function.update_of_ne (ne_dev (by decide)), Function.update_self]
theorem X7_at1 (c : Dev nD) : X7 m c main_v14_1 = o7_1 m c := by
  unfold X7
  rw [Function.update_of_ne (ne_dev (by decide)), Function.update_self]
theorem X7_at2 (c : Dev nD) : X7 m c main_v14_2 = o7_2 m c := Function.update_self ..
theorem V7_eq (c : Dev nD) : V7 m (outs m) c = X7 m c := by
  show Function.update (Function.update (Function.update (V6 m (outs m) c) main_v14_0 (X7 m c main_v14_0)) main_v14_1 (X7 m c main_v14_1)) main_v14_2 (X7 m c main_v14_2) = X7 m c
  rw [X7_at0, X7_at1, X7_at2, V6_eq]; rfl
theorem V8_eq (c : Dev nD) : V8 m (outs m) c = X8 m c := congrArg (StableHlo.after hostOps2) (V7_eq m c)
theorem X9_at0 (c : Dev nD) : X9 m c main_v31_0 = o9_0 m c := by
  unfold X9
  rw [Function.update_of_ne (ne_dev (by decide)), Function.update_of_ne (ne_dev (by decide)), Function.update_self]
theorem X9_at1 (c : Dev nD) : X9 m c main_v31_1 = o9_1 m c := by
  unfold X9
  rw [Function.update_of_ne (ne_dev (by decide)), Function.update_self]
theorem X9_at2 (c : Dev nD) : X9 m c main_v31_2 = o9_2 m c := Function.update_self ..
theorem V9_eq (c : Dev nD) : V9 m (outs m) c = X9 m c := by
  show Function.update (Function.update (Function.update (V8 m (outs m) c) main_v31_0 (X9 m c main_v31_0)) main_v31_1 (X9 m c main_v31_1)) main_v31_2 (X9 m c main_v31_2) = X9 m c
  rw [X9_at0, X9_at1, X9_at2, V8_eq]; rfl
theorem V10_eq (c : Dev nD) : V10 m (outs m) c = X10 m c := congrArg (StableHlo.after hostOps3) (V9_eq m c)
theorem X11_main_v46 (c : Dev nD) : X11 m c main_v46 = o11 m c := Function.update_self ..
theorem V11_eq (c : Dev nD) : V11 m (outs m) c = X11 m c := by
  show Function.update (V10 m (outs m) c) main_v46 (X11 m c main_v46) = X11 m c
  rw [X11_main_v46, V10_eq]; rfl

theorem X2_of_ne (c : Dev nD) (b : Ref sig .tc) (h : b ≠ main_v2) : X2 m c b = X1 m c b :=
  Function.update_of_ne (ne_dev h) ..
theorem X2_main_v2 (c : Dev nD) : X2 m c main_v2 = o2 m c := Function.update_self ..
theorem X7_of_ne (c : Dev nD) (b : Ref sig .tc) (h0 : b ≠ main_v14_0) (h1 : b ≠ main_v14_1) (h2 : b ≠ main_v14_2) :
    X7 m c b = X6 m c b := by
  unfold X7
  rw [Function.update_of_ne (ne_dev h2), Function.update_of_ne (ne_dev h1), Function.update_of_ne (ne_dev h0)]
theorem X9_of_ne (c : Dev nD) (b : Ref sig .tc) (h0 : b ≠ main_v31_0) (h1 : b ≠ main_v31_1) (h2 : b ≠ main_v31_2) :
    X9 m c b = X8 m c b := by
  unfold X9
  rw [Function.update_of_ne (ne_dev h2), Function.update_of_ne (ne_dev h1), Function.update_of_ne (ne_dev h0)]
theorem X11_of_ne (c : Dev nD) (b : Ref sig .tc) (h : b ≠ main_v46) : X11 m c b = X10 m c b :=
  Function.update_of_ne (ne_dev h) ..

theorem ne_arr {W : ℕ} {f : Fin W → Ref sig .tc} {b : Ref sig .tc} (hb : b ∉ Finset.univ.image f) (k : Fin W) : b ≠ f k :=
  fun e => hb (Finset.mem_image.mpr ⟨k, Finset.mem_univ _, e.symm⟩)

theorem hFin0 (c : Dev nD) (w : Fin cfg0.W) (hw : (cfg0.win w).isOut = false) (h0 : Pipeline.arrRef spec0 w ≠ main_v2) :
    (dat0 (X1' m) c).arrAt w cfg0.N = X2' m c (Pipeline.arrRef spec0 w) :=
  ((dat0 (X1' m) c).arrAt_in w hw _).trans <| (A_eq0 (X1' m) c w).trans (X2_of_ne m c _ h0).symm
theorem hF0 (c : Dev nD) : ∀ w, (dat0 (X1' m) c).arrAt w cfg0.N = X2' m c (Pipeline.arrRef spec0 w)
  | ⟨0, _⟩ => hFin0 m c 0 rfl (by decide)
  | ⟨1, _⟩ => hFin0 m c 1 rfl (by decide)
  | ⟨2, _⟩ => hFin0 m c 2 rfl (by decide)
  | ⟨3, _⟩ => (X2_main_v2 m c).symm
theorem hrest0 (c : Dev nD) : ∀ b, b ∉ Finset.univ.image (Pipeline.arrRef spec0) → X2' m c b = X1' m c b :=
  fun b hb => X2_of_ne m c b (ne_arr hb 3)

theorem hFin1 (c : Dev nD) (w : Fin cfg1.W) (hw : (cfg1.win w).isOut = false) (h0 : Pipeline.arrRef spec1 w ≠ main_v14_0) (h1 : Pipeline.arrRef spec1 w ≠ main_v14_1) (h2 : Pipeline.arrRef spec1 w ≠ main_v14_2) :
    (dat1 (X6' m) c).arrAt w cfg1.N = X7' m c (Pipeline.arrRef spec1 w) :=
  ((dat1 (X6' m) c).arrAt_in w hw _).trans <| (A_eq1 (X6' m) c w).trans (X7_of_ne m c _ h0 h1 h2).symm
theorem hF1 (c : Dev nD) : ∀ w, (dat1 (X6' m) c).arrAt w cfg1.N = X7' m c (Pipeline.arrRef spec1 w)
  | ⟨0, _⟩ => hFin1 m c 0 rfl (by decide) (by decide) (by decide)
  | ⟨1, _⟩ => hFin1 m c 1 rfl (by decide) (by decide) (by decide)
  | ⟨2, _⟩ => hFin1 m c 2 rfl (by decide) (by decide) (by decide)
  | ⟨3, _⟩ => hFin1 m c 3 rfl (by decide) (by decide) (by decide)
  | ⟨4, _⟩ => hFin1 m c 4 rfl (by decide) (by decide) (by decide)
  | ⟨5, _⟩ => (X7_at0 m c).symm
  | ⟨6, _⟩ => (X7_at1 m c).symm
  | ⟨7, _⟩ => (X7_at2 m c).symm
theorem hrest1 (c : Dev nD) : ∀ b, b ∉ Finset.univ.image (Pipeline.arrRef spec1) → X7' m c b = X6' m c b :=
  fun b hb => X7_of_ne m c b (ne_arr hb 5) (ne_arr hb 6) (ne_arr hb 7)

theorem hFin2 (c : Dev nD) (w : Fin cfg2.W) (hw : (cfg2.win w).isOut = false) (h0 : Pipeline.arrRef spec2 w ≠ main_v31_0) (h1 : Pipeline.arrRef spec2 w ≠ main_v31_1) (h2 : Pipeline.arrRef spec2 w ≠ main_v31_2) :
    (dat2 (X8' m) c).arrAt w cfg2.N = X9' m c (Pipeline.arrRef spec2 w) :=
  ((dat2 (X8' m) c).arrAt_in w hw _).trans <| (A_eq2 (X8' m) c w).trans (X9_of_ne m c _ h0 h1 h2).symm
theorem hF2 (c : Dev nD) : ∀ w, (dat2 (X8' m) c).arrAt w cfg2.N = X9' m c (Pipeline.arrRef spec2 w)
  | ⟨0, _⟩ => hFin2 m c 0 rfl (by decide) (by decide) (by decide)
  | ⟨1, _⟩ => hFin2 m c 1 rfl (by decide) (by decide) (by decide)
  | ⟨2, _⟩ => hFin2 m c 2 rfl (by decide) (by decide) (by decide)
  | ⟨3, _⟩ => hFin2 m c 3 rfl (by decide) (by decide) (by decide)
  | ⟨4, _⟩ => hFin2 m c 4 rfl (by decide) (by decide) (by decide)
  | ⟨5, _⟩ => (X9_at0 m c).symm
  | ⟨6, _⟩ => (X9_at1 m c).symm
  | ⟨7, _⟩ => (X9_at2 m c).symm
theorem hrest2 (c : Dev nD) : ∀ b, b ∉ Finset.univ.image (Pipeline.arrRef spec2) → X9' m c b = X8' m c b :=
  fun b hb => X9_of_ne m c b (ne_arr hb 5) (ne_arr hb 6) (ne_arr hb 7)

theorem hFin3 (c : Dev nD) (w : Fin cfg3.W) (hw : (cfg3.win w).isOut = false) (h0 : Pipeline.arrRef spec3 w ≠ main_v46) :
    (dat3 (X10' m) c).arrAt w cfg3.N = X11' m c (Pipeline.arrRef spec3 w) :=
  ((dat3 (X10' m) c).arrAt_in w hw _).trans <| (A_eq3 (X10' m) c w).trans (X11_of_ne m c _ h0).symm
theorem hF3 (c : Dev nD) : ∀ w, (dat3 (X10' m) c).arrAt w cfg3.N = X11' m c (Pipeline.arrRef spec3 w)
  | ⟨0, _⟩ => hFin3 m c 0 rfl (by decide)
  | ⟨1, _⟩ => hFin3 m c 1 rfl (by decide)
  | ⟨2, _⟩ => hFin3 m c 2 rfl (by decide)
  | ⟨3, _⟩ => (X11_main_v46 m c).symm
theorem hrest3 (c : Dev nD) : ∀ b, b ∉ Finset.univ.image (Pipeline.arrRef spec3) → X11' m c b = X10' m c b :=
  fun b hb => X11_of_ne m c b (ne_arr hb 3)

end Cert.Kernel.Hand

end
-- ==== Proof.K.RunRegs.lean ====
import proofs.«426623_j69028714381392_1_alg».proof.Proof.K.RunVals

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def pdats : (p : Fin 4) → (c : Dev nD) → Dat τ (Elt F) Unit ℕ (UR sig nD τ) ℕ (cfgs p) c
  | ⟨0, _⟩ => fun c => dat0 (X1' m) c
  | ⟨1, _⟩ => fun c => dat1 (X6' m) c
  | ⟨2, _⟩ => fun c => dat2 (X8' m) c
  | ⟨3, _⟩ => fun c => dat3 (X10' m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
def mkSeg (p : Fin 4) (la : Pipeline.LaunchFacts (nD := nD) (τ := τ) cfgs p) (Xi Xo : Dev nD → Valuation τ sig (Elt F))
    (hb : ∀ c, BodyObligation (pdats m p c) (defs₀ (F := F)) Variants.none () Set.univ)
    (h0 : ∀ c t, (pdats m p c).owed t = 0) (hq : ∀ c w, (pdats m p c).q w = fullShare)
    (hrec : ∀ c t, (pdats m p c).recorded t = Set.univ)
    (hA : ∀ c w, (pdats m p c).A w = atTc Xi c (Pipeline.arrRef (cfgs p).spec w))
    (hF : ∀ c w, (pdats m p c).arrAt w (cfgs p).N = atTc Xo c (Pipeline.arrRef (cfgs p).spec w))
    (hrest : ∀ c b, b ∉ Finset.univ.image (Pipeline.arrRef (cfgs p).spec) → atTc Xo c b = atTc Xi c b)
    (hin : ∀ c, Pipeline.ΦA (cfgs p).spec c ⊢ (pdats m p c).Φ 0)
    (hout : ∀ c, (pdats m p c).Φ (Fin.last _) ⊢ Pipeline.ΦA (cfgs p).spec c) :
    RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Xi c) ∗ R c)
  post c := iprop(StableHlo.held (c : Thread nD τ) (Pipeline.ucRefs τ sig) (Xo c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Xi c)
  hentry c := by
    rw [Pipeline.ownSems0_none]
    have hsplit := Pipeline.arrays_of_unscopedBufs (p := p) (pcfgs (F := F)) adm (pdats m) la.win la.arr_whole c
      ((pdats m p c).share_full (hq c)) (atTc Xi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0, hrec]
      icases HO with ⟨%W, HO⟩; iexists W; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c))
      (atTc Xi c) (atTc Xo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

def reg0 := mkSeg m 0 launch0 (X1 m) (X2 m) (body_obligation0 (X1' m)) (fun _ _ => rfl) (fun _ _ => rfl) (fun _ _ => rfl)
  (A_eq0 (X1' m)) (hF0 m) (hrest0 m) (fun _ => .rfl) (fun _ => .rfl)
def reg1 := mkSeg m 1 launch1 (X6 m) (X7 m) (body_obligation1 (X6' m)) (fun _ _ => rfl) (fun _ _ => rfl) (fun _ _ => rfl)
  (A_eq1 (X6' m)) (hF1 m) (hrest1 m) (hin1 (X6' m)) (hout1 (X6' m))
def reg2 := mkSeg m 2 launch2 (X8 m) (X9 m) (body_obligation2 (X8' m)) (fun _ _ => rfl) (fun _ _ => rfl) (fun _ _ => rfl)
  (A_eq2 (X8' m)) (hF2 m) (hrest2 m) (hin2 (X8' m)) (hout2 (X8' m))
def reg3 := mkSeg m 3 launch3 (X10 m) (X11 m) (body_obligation3 (X10' m)) (fun _ _ => rfl) (fun _ _ => rfl) (fun _ _ => rfl)
  (A_eq3 (X10' m)) (hF3 m) (hrest3 m) (fun _ => .rfl) (fun _ => .rfl)

end Cert.Kernel.Hand

end
-- ==== Proof.K.RunCond.lean ====
import proofs.«426623_j69028714381392_1_alg».proof.Proof.K.RunRegs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem held_eq {c : Dev nD} {X Y : Valuation τ sig (Elt F)} (h : Y = X) :
    iprop(StableHlo.held (c : Thread nD τ) (Pipeline.ucRefs τ sig) X ∗ R c) ⊢ iprop(StableHlo.held (c : Thread nD τ) (Pipeline.ucRefs τ sig) Y ∗ R c) :=
  h ▸ .rfl

set_option backward.isDefEq.respectTransparency.types false in
theorem run_main : θ_run defs (onTc (τ := τ) (main (F := F))) ⟨m, fun _ => 0, ρ⟩ (fun r => ∀ c : Dev nD, ∀ b ∈ Pipeline.ucRefs τ sig,
      r.2.mem ((c : Thread nD τ).1, b) = V11 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m) (reg3 m))
    (fun c Q => by
      rewrite [main_chain c, Seg.run_eq_chain,
        show (segs m (outs m) 𝒱₀ L lv (fun _ => R) () (pdats m) (reg0 m) (reg1 m) (reg2 m) (reg3 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V11 m (outs m) c))
    (hch := fun c => ⟨.rfl, .rfl, held_eq (V2_eq m c), .rfl, .rfl, .rfl, held_eq (V6_eq m c).symm, held_eq (V7_eq m c),
      held_eq (V8_eq m c).symm, held_eq (V9_eq m c), held_eq (V10_eq m c).symm,
      (held_eq (V11_eq m c)).trans (sep_mono .rfl (by iintro ⟨-, HO⟩; iexact HO))⟩)
    (hinit := ?_) (QY := fun c s => ∀ b ∈ Pipeline.ucRefs τ sig, s.mem ((c : Thread nD τ).1, b) = V11 m (outs m) c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hE0 : iprop((bigSep Finset.univ fun c : Dev nD => iprop(unscopedSems0 c ∗ owes (c : Thread nD τ) (0 : CellTallies nD τ sig Unit) ∅
          ∗ Pipeline.launchCred (0 : Dev nD → CellTallies nD τ sig Unit) c ∗ prngReg c (ρ c) ∗ emp)) ∗ levAts L lv)
        ⊢ (|={Set.univ}=> bigSep Finset.univ R : sProp 𝕄) := by
      refine Pipeline.initEach L lv fun c => ?_
      iintro ⟨⟨-, HO, -, Hp, -⟩, -⟩
      imodintro
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (0 : Dev nD → CellTallies nD τ sig Unit) c ∗ prngReg c (ρ c) ∗ emp)) : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep' _ fun c : Dev nD => StableHlo.held (c : Thread nD τ) (Pipeline.ucRefs τ sig) (V0 m c)]
    isplitl [Hh]; · iexact Hh
    iexact HE
  · unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact h
    · iexact HSI

end Cert.Kernel.Hand

end
-- ==== Proof.K.Run.lean ====
import proofs.«426623_j69028714381392_1_alg».proof.Proof.K.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_value : θ_run defs (onTc (τ := τ) (main (F := F))) ⟨m, fun _ => 0, ρ⟩ (fun r => ∀ c : Dev nD,
      r.2.mem ((c.tc : Thread nD τ).loc main_v46) = o11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun r hr c =>
    ⟨(hr c _ (mem_uc main_v46 (by decide))).trans ((congrFun (V11_eq m c) _).trans (X11_main_v46 m c)),
     (hr c _ (mem_uc main_arg0 (by decide))).trans (V11_main_arg0 m (outs m) c),
     (hr c _ (mem_uc main_arg1 (by decide))).trans (V11_main_arg1 m (outs m) c),
     (hr c _ (mem_uc main_arg2 (by decide))).trans (V11_main_arg2 m (outs m) c),
     (hr c _ (mem_uc main_arg3 (by decide))).trans (V11_main_arg3 m (outs m) c),
     (hr c _ (mem_uc main_arg4 (by decide))).trans (V11_main_arg4 m (outs m) c),
     (hr c _ (mem_uc main_arg5 (by decide))).trans (V11_main_arg5 m (outs m) c),
     (hr c _ (mem_uc main_arg6 (by decide))).trans (V11_main_arg6 m (outs m) c),
     (hr c _ (mem_uc main_arg7 (by decide))).trans (V11_main_arg7 m (outs m) c),
     (hr c _ (mem_uc main_arg8 (by decide))).trans (V11_main_arg8 m (outs m) c),
     (hr c _ (mem_uc main_arg9 (by decide))).trans (V11_main_arg9 m (outs m) c),
     (hr c _ (mem_uc main_arg10 (by decide))).trans (V11_main_arg10 m (outs m) c),
     (hr c _ (mem_uc main_arg11 (by decide))).trans (V11_main_arg11 m (outs m) c),
     (hr c _ (mem_uc main_arg12 (by decide))).trans (V11_main_arg12 m (outs m) c)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun _ h c => (h c).2) (run_value m ρ)

end Cert.Kernel.Hand

end
-- ==== Proof.KI.Reg0.lean ====
import proofs.«426623_j69028714381392_1_alg».proof.Proof.Gen.KernelIdeal.Launch
import proofs.«426623_j69028714381392_1_alg».proof.Proof.Gen.KernelIdeal.Skeleton
import proofs.«426623_j69028714381392_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

private theorem offz : (![0, 0] : Fin 2 → ℕ) = fun _ => 0 := funext fun a => by fin_cases a <;> rfl

set_option maxHeartbeats 1000000 in
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__lin_kernel i arg1 harg1 arg2 harg2 arg3 harg3 arg4 harg4) K := by
  simp only [cc0__lin_kernel_eq_skeleton]; unfold cc0__lin_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ fun y => ⟨_, List.mem_singleton_self _, View.mem_set_unit_zero offz inb_S10000x128_S10000x128_0_0 y⟩, View.canon_unit_zero offz]
  rw [View.readAt_eq_ld, View.readAt_eq_ld, View.readAt_eq_ld, View.ld_unit_zero (S := S10000x128) offz, View.ld_unit_zero (S := S128x128) offz, View.ld_unit_zero (S := S1x128) offz]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = k0_pay1 (iblk0 V c 0 t) (iblk0 V c 1 t) (iblk0 V c 2 t) := rfl

theorem before0 (c : Dev nD) (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;>
    exact fun d => Eq.trans (Dat.before_in_eq_fetched _ _ rfl (fun _ => rfl) (fun _ _ _ => rfl) (fun _ => rfl) t d) rfl

theorem body_obligation0 (c : Dev nD) : BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d)) ∗ (∃ d, owns (c : Thread nD τ) (st0_1 t) fullShare ((dat0 V c).before 1 t d))
      ∗ (∃ d, owns (c : Thread nD τ) (st0_2 t) fullShare ((dat0 V c).before 2 t d)) ∗ (∃ d, owns (c : Thread nD τ) (st0_3 t) fullShare ((dat0 V c).before 3 t d)))
    ⊢ wp frame (wpE (defs₀ (F := F)) Variants.none c none) Set.univ (bodyAt0 t) (fun _ => iprop((dat0 V c).Φ t.castSucc
      ∗ (dat0 V c).owesAt () t.castSucc ∗ owns (c : Thread nD τ) (st0_0 t) fullShare (iblk0 V c 0 t) ∗ owns (c : Thread nD τ) (st0_1 t) fullShare (iblk0 V c 1 t)
      ∗ owns (c : Thread nD τ) (st0_2 t) fullShare (iblk0 V c 2 t) ∗ owns (c : Thread nD τ) (st0_3 t) fullShare (k0_pay1 (iblk0 V c 0 t) (iblk0 V c 1 t) (iblk0 V c 2 t))))
  unfold bodyAt0
  simp only [(before0 V c t).1, (before0 V c t).2.1, (before0 V c t).2.2]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  iframe

end Cert.KernelIdeal.Hand

end
-- ==== Proof.KI.Reg1.lean ====
import proofs.«426623_j69028714381392_1_alg».proof.Proof.Gen.KernelIdeal.Launch
import proofs.«426623_j69028714381392_1_alg».proof.Proof.Gen.KernelIdeal.Skeleton
import proofs.«426623_j69028714381392_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond1_0 (i : grid1.Coords) : Prop :=
  (Scalar.cmpi .ne (Scalar.extui (Scalar.cmpi .eq (BitVec.ofNat 32 (i 0).val) 0#32)) 0#32) = 1#1
theorem hcond1_0 : ∀ t : Fin cfg1.N, cond1_0 (grid1.coords t) ↔ t.val = 0 := by decide +kernel
abbrev cond1_1 (i : grid1.Coords) : Prop := k1_cond2 i = 1#1
theorem hcond1_1 : ∀ t : Fin cfg1.N, cond1_1 (grid1.coords t) ↔ t.val = 127 := by decide +kernel

theorem live1 : ∀ (t : Fin cfg1.N) (w : Fin cfg1.W), w.val < 6 ∨ t.val = 127 → cfg1.idle w (grid1.coords t) = false := by decide +kernel
theorem idle1 : ∀ (t : Fin cfg1.N) (w : Fin cfg1.W), 6 ≤ w.val → t.val ≠ 127 → cfg1.idle w (grid1.coords t) = true ∧ (cfg1.win w).flush t = false := by decide +kernel

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S1x128 .f32 × Vec F S1x128 .f32
  | 0, h => (k1_pay5 (iblk1 V c 0 ⟨0, h⟩) (iblk1 V c 1 ⟨0, h⟩) (iblk1 V c 2 ⟨0, h⟩) (iblk1 V c 3 ⟨0, h⟩) (iblk1 V c 4 ⟨0, h⟩) k1_pay2,
      k1_pay1 k1_pay3 (k1_pay6 (iblk1 V c 0 ⟨0, h⟩) (iblk1 V c 1 ⟨0, h⟩) (iblk1 V c 2 ⟨0, h⟩) (iblk1 V c 3 ⟨0, h⟩) (iblk1 V c 4 ⟨0, h⟩)))
  | n + 1, h => (k1_pay5 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (acc1 c n (Nat.lt_of_succ_lt h)).1,
      k1_pay1 (acc1 c n (Nat.lt_of_succ_lt h)).2 (k1_pay6 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)))

-- One point's update of the two running sums `s`, which the first point (`p`) takes from zero.
def step1 (p : Prop) [Decidable p] (x0 x1 : Vec F S5000x128 .f32) (x2 x3 : Vec F S128x128 .f32) (x4 : Vec F S1x128 .f32) (s : Vec F S1x128 .f32 × Vec F S1x128 .f32) : Vec F S1x128 .f32 × Vec F S1x128 .f32 :=
  (k1_pay5 x0 x1 x2 x3 x4 (if p then k1_pay2 else s.1), k1_pay1 (if p then k1_pay3 else s.2) (k1_pay6 x0 x1 x2 x3 x4))

theorem acc1_eq (c : Dev nD) (t : Fin cfg1.N) (s : Vec F S1x128 .f32 × Vec F S1x128 .f32) (hs : ∀ m h, t.val = m + 1 → s = acc1 V c m h) :
    acc1 V c t.val t.isLt = step1 (t.val = 0) (iblk1 V c 0 t) (iblk1 V c 1 t) (iblk1 V c 2 t) (iblk1 V c 3 t) (iblk1 V c 4 t) s := by
  obtain ⟨n, hn⟩ := t
  cases n with
  | zero => rfl
  | succ n => rw [hs n _ rfl]; rfl

abbrev scM1_0 : Memref sig .tc .vmem S1x128 .f32 := Memref.whole cc1_scratch0
abbrev scM1_1 : Memref sig .tc .vmem S1x128 .f32 := Memref.whole cc1_scratch1

-- The invariant before point `n`: the carried pair is the sums over the points before it (before the first, any pair).
def Phi1 (c : Dev nD) (n : ℕ) : sProp 𝕄 :=
  iprop(∃ s : Vec F S1x128 .f32 × Vec F S1x128 .f32, ⌜∀ m h, n = m + 1 → s = acc1 V c m h⌝ ∗ owns c scM1_0 fullShare s.1 ∗ owns c scM1_1 fullShare s.2
    ∗ Pipeline.scopedRestBut spec1 c [cc1_scratch0, cc1_scratch1] ∗ (∃ r, prngReg c r))

theorem PhiA1_eq (c : Dev nD) :
    (Pipeline.ΦA spec1 c : sProp 𝕄)
      = iprop(iprop(iprop((∃ d, owns c scM1_0 fullShare d) ∗ (∃ d, owns c scM1_1 fullShare d))
          ∗ Pipeline.scopedRestBut spec1 c [cc1_scratch0, cc1_scratch1]) ∗ (∃ r, prngReg c r)) := by
  unfold Pipeline.ΦA; rw [scopedRest1_split]; simp only [scM1_0, scM1_1, owns_whole]; try rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay4 (iblk1 V c 0 t) (iblk1 V c 1 t) (iblk1 V c 2 t) (iblk1 V c 3 t) (iblk1 V c 4 t)
    | ⟨6, _⟩ => (acc1 V c t.val t.isLt).1
    | ⟨7, _⟩ => (acc1 V c t.val t.isLt).2
  Φ t := Phi1 V c t.val
  q _ := fullShare
  owed _ := 0

theorem A_eq1 (c : Dev nD) (w : Fin cfg1.W) : (dat1 V c).A w = V c (Pipeline.arrRef spec1 w) := rfl
theorem after1_5 (c : Dev nD) (t : Fin cfg1.N) : (dat1 V c).after 5 t = k1_pay4 (iblk1 V c 0 t) (iblk1 V c 1 t) (iblk1 V c 2 t) (iblk1 V c 3 t) (iblk1 V c 4 t) := rfl
theorem after1_6 (c : Dev nD) (t : Fin cfg1.N) : (dat1 V c).after 6 t = (acc1 V c t.val t.isLt).1 := rfl
theorem after1_7 (c : Dev nD) (t : Fin cfg1.N) : (dat1 V c).after 7 t = (acc1 V c t.val t.isLt).2 := rfl

theorem before1 (c : Dev nD) : ∀ w : Fin cfg1.W, w.val < 5 → ∀ t d, (dat1 V c).before w t d = (dat1 V c).after w t
  | ⟨0, _⟩, _ | ⟨1, _⟩, _ | ⟨2, _⟩, _ | ⟨3, _⟩, _ | ⟨4, _⟩, _ => (dat1 V c).before_in_eq_fetched _ rfl (fun _ => rfl) (fun _ _ _ => rfl) (fun _ => rfl)
  | ⟨n + 5, _⟩, h => absurd h (Nat.not_lt.mpr (Nat.le_add_left 5 n))

theorem leaves1 (c : Dev nD) (w : Fin cfg1.W) (t : Fin cfg1.N) (h : w.val < 6 ∨ t.val = 127) :
    (dat1 V c).leavesExact w t = owns c ((cfg1.win w).stage (cfg1.slots t w)) fullShare ((dat1 V c).after w t) := by
  unfold Dat.leavesExact; rw [live1 t w h]

theorem r1_hz : (![0, 0] : Fin 2 → Nat) = fun _ => 0 := funext fun a => by fin_cases a <;> rfl
theorem r1_read_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h]

-- The body's effect, given the truth values `p0`, `p1` of its two branch conditions (never both true).
set_option maxHeartbeats 1000000 in
theorem run1 (c : Dev nD) (i : grid1.Coords) (p0 p1 : Prop) [Decidable p0] [Decidable p1] (e0 : cond1_0 i ↔ p0) (e1 : cond1_1 i ↔ p1) (hne : p0 → ¬p1)
    {a1 a2 a6 : Memref sig .tc .vmem S5000x128 .f32} {a3 a4 : Memref sig .tc .vmem S128x128 .f32} {a5 a7 a8 a9 a10 : Memref sig .tc .vmem S1x128 .f32}
    {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole}
    (x0 x1 x5 : Vec F S5000x128 .f32) (x2 x3 : Vec F S128x128 .f32) (x4 x6 x7 x8 x9 : Vec F S1x128 .f32) (E : Set ℕ) (K : PUnit → sProp 𝕄) :
    iprop(owns c a1 fullShare x0 ∗ owns c a2 fullShare x1 ∗ owns c a3 fullShare x2 ∗ owns c a4 fullShare x3 ∗ owns c a5 fullShare x4
        ∗ owns c a6 fullShare x5 ∗ owns c a7 fullShare x6 ∗ owns c a8 fullShare x7 ∗ owns c a9 fullShare x8 ∗ owns c a10 fullShare x9
        ∗ (iprop(owns c a1 fullShare x0 ∗ owns c a2 fullShare x1 ∗ owns c a3 fullShare x2 ∗ owns c a4 fullShare x3 ∗ owns c a5 fullShare x4
            ∗ owns c a6 fullShare (k1_pay4 x0 x1 x2 x3 x4) ∗ owns c a7 fullShare (if p1 then (step1 p0 x0 x1 x2 x3 x4 (x8, x9)).1 else x6) ∗ owns c a8 fullShare (if p1 then (step1 p0 x0 x1 x2 x3 x4 (x8, x9)).2 else x7)
            ∗ owns c a9 fullShare (step1 p0 x0 x1 x2 x3 x4 (x8, x9)).1 ∗ owns c a10 fullShare (step1 p0 x0 x1 x2 x3 x4 (x8, x9)).2) -∗ K ⟨⟩))
      ⊢ wp frame (wpE (defs₀ (F := F)) Variants.none c none) E (cc1__mlp1_kernel i a1 h1 a2 h2 a3 h3 a4 h4 a5 h5 a6 h6 a7 h7 a8 h8 a9 h9 a10 h10) K := by
  by_cases hp0 : p0 <;> by_cases hp1 : p1 <;> first | exact absurd hp1 (hne hp0) | simp only [step1, hp0, hp1, ↓reduceIte]
  all_goals
    unfold owns
    iintro ⟨⟨%f1, %hf1, H1⟩, ⟨%f2, %hf2, H2⟩, ⟨%f3, %hf3, H3⟩, ⟨%f4, %hf4, H4⟩, ⟨%f5, %hf5, H5⟩, ⟨%f6, -, H6⟩, ⟨%f7, %hf7, H7⟩, ⟨%f8, %hf8, H8⟩, ⟨%f9, %hf9, H9⟩, ⟨%f10, %hf10, H10⟩, Hk⟩
    simp only [cc1__mlp1_kernel_eq_skeleton]; unfold cc1__mlp1_kernel_skel
    sl_exec (disch := first | sl_exact (e0.mpr hp0) | sl_exact (e1.mpr hp1) | sl_exact (mt e0.mp hp0) | sl_exact (mt e1.mp hp1))
    sl_step
    iapply Hk
    (isplitl [H1]; swap); (isplitl [H2]; swap); (isplitl [H3]; swap); (isplitl [H4]; swap); (isplitl [H5]; swap); (isplitl [H6]; swap); (isplitl [H7]; swap); (isplitl [H8]; swap); (isplitl [H9]; swap)
    all_goals
      iexists _; isplitr; swap; iassumption
      ipureintro
      first
        | try sl_unfold_words
          refine (r1_read_last _ _ r1_hz _ _ _).trans ?_
          simp only [View.readCov_unit_zero (S := S1x128) _ r1_hz, View.readAt_eq_ld, hf1, hf2, hf3, hf4, hf5, hf9, hf10, View.ld_unit_zero (S := S5000x128) r1_hz, View.ld_unit_zero (S := S128x128) r1_hz, View.ld_unit_zero (S := S1x128) r1_hz]
        | assumption

theorem Phi1_eq (c : Dev nD) (u : Fin (cfg1.N + 1)) : (dat1 V c).Φ u = Phi1 V c u.val := rfl

def pre1 (c : Dev nD) (t : Fin cfg1.N) (w : Fin cfg1.W) : sProp 𝕄 :=
  iprop(∃ d, owns c ((cfg1.win w).stage (cfg1.slots t w)) fullShare ((dat1 V c).before w t d))

theorem sound_body1 (c : Dev nD) (t : Fin cfg1.N) :
    iprop((dat1 V c).Φ t.castSucc ∗ (dat1 V c).owesAt () t.castSucc ∗ pre1 V c t 0 ∗ pre1 V c t 1 ∗ pre1 V c t 2 ∗ pre1 V c t 3 ∗ pre1 V c t 4 ∗ pre1 V c t 5 ∗ pre1 V c t 6 ∗ pre1 V c t 7)
      ⊢ wp frame (wpE (defs₀ (F := F)) Variants.none c none) Set.univ (bodyAt1 t) fun _ =>
        iprop((dat1 V c).Φ t.succ ∗ (dat1 V c).owesAt () t.succ ∗ (dat1 V c).leavesExact 0 t ∗ (dat1 V c).leavesExact 1 t ∗ (dat1 V c).leavesExact 2 t ∗ (dat1 V c).leavesExact 3 t
          ∗ (dat1 V c).leavesExact 4 t ∗ (dat1 V c).leavesExact 5 t ∗ (dat1 V c).leavesExact 6 t ∗ (dat1 V c).leavesExact 7 t) := by
  unfold pre1
  simp only [before1 V c 0 (by decide), before1 V c 1 (by decide), before1 V c 2 (by decide), before1 V c 3 (by decide), before1 V c 4 (by decide)]
  rw [leaves1 V c 0 t (.inl (by decide)), leaves1 V c 1 t (.inl (by decide)), leaves1 V c 2 t (.inl (by decide)), leaves1 V c 3 t (.inl (by decide)), leaves1 V c 4 t (.inl (by decide)), leaves1 V c 5 t (.inl (by decide)),
    Phi1_eq, Phi1_eq]
  unfold Phi1
  iintro ⟨⟨%s, %hs, HS0, HS1, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1 c (grid1.coords t) (t.val = 0) (t.val = 127) (hcond1_0 t) (hcond1_1 t) (fun h0 h1 => by omega) (a1 := st1_0 t) (a2 := st1_1 t) (a3 := st1_2 t) (a4 := st1_3 t) (a5 := st1_4 t) (a6 := st1_5 t) (a7 := st1_6 t) (a8 := st1_7 t)
    ((dat1 V c).after 0 t) ((dat1 V c).after 1 t) _ ((dat1 V c).after 2 t) ((dat1 V c).after 3 t) ((dat1 V c).after 4 t) ((dat1 V c).before 6 t d6) ((dat1 V c).before 7 t d7) s.1 s.2 Set.univ _)
  iframe H0 H1 H2 H3 H4 H5 H6 H7 HS0 HS1
  iintro ⟨H0, H1, H2, H3, H4, H5, H6, H7, HS0, HS1⟩
  isplitl [HS0 HS1 Hr Hg]
  · iexists _; iframe; ipureintro; intro m h e; cases e; exact (acc1_eq V c t s hs).symm
  isplitl [Ho]; · iexact Ho
  iframe H0 H1 H2 H3 H4
  isplitl [H5]; · iexact H5
  by_cases h1 : t.val = 127
  · rw [leaves1 V c 6 t (.inr h1), leaves1 V c 7 t (.inr h1), after1_6, after1_7, acc1_eq V c t s hs]
    simp only [if_pos h1]
    isplitl [H6]; · iexact H6
    iexact H7
  · rw [Dat.leavesExact_idle (dat1 V c) 6 t (idle1 t 6 (by decide) h1).1 (idle1 t 6 (by decide) h1).2, Dat.leavesExact_idle (dat1 V c) 7 t (idle1 t 7 (by decide) h1).1 (idle1 t 7 (by decide) h1).2]
    simp only [if_neg h1]
    isplitl [H6]; · iexists _; iexact H6
    iexists _; iexact H7

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq, Phi1_eq]; unfold Phi1
  iintro ⟨⟨⟨⟨%d0, H0⟩, ⟨%d1, H1⟩⟩, Hr⟩, Hg⟩
  iexists (d0, d1); iframe
  ipureintro; exact fun m _ e => absurd e (Nat.succ_ne_zero m).symm

theorem hout1 (c : Dev nD) : (dat1 V c).Φ (Fin.last cfg1.N) ⊢ Pipeline.ΦA spec1 c := by
  rw [PhiA1_eq, Phi1_eq]; unfold Phi1
  iintro ⟨%s, -, H0, H1, Hr, Hg⟩
  iframe Hr Hg
  isplitl [H0] <;> iexists _ <;> iassumption

end Cert.KernelIdeal.Hand
end
-- ==== Proof.KI.Reg2.lean ====
import proofs.«426623_j69028714381392_1_alg».proof.Proof.Gen.KernelIdeal.Launch
import proofs.«426623_j69028714381392_1_alg».proof.Proof.Gen.KernelIdeal.Skeleton
import proofs.«426623_j69028714381392_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1
theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 127 :=
  (by decide +kernel : ∀ t : Fin grid2.N, cond2_1 (grid2.coords t) ↔ t.val = 127)

theorem r2_zero_off : (![0, 0] : Fin 2 → ℕ) = fun _ => 0 := by
  funext a; fin_cases a <;> rfl

theorem owns_unread {d : Dev nD} {sp : Space} {s : Shape} {e : EltTy} {m : Memref sig .tc sp s e} (h : m.IsWhole) (X : s.Idx → Elt F e) :
    (owns d.tc m fullShare X : sProp 𝕄) = (m.view.loc d.tc ↦[m.view.set]{fullShare} h.unread X) := by
  have h₁ : (owns d.tc m fullShare X : sProp 𝕄) ⊢ (m.view.loc d.tc ↦[m.view.set]{fullShare} h.unread X) := by
    unfold owns; iintro ⟨%g, %hg, H⟩; obtain rfl := h.eq_unread hg; iexact H
  exact BI.equiv_iff.mp ⟨h₁, (owns_intro d.tc m fullShare (h.unread X)).trans (by rw [h.read_unread])⟩

theorem r2_put {d : Dev nD} {sp : Space} {s : Shape} {e : EltTy} {m : Memref sig .tc sp s e} (h : m.IsWhole) (f : m.view.ty.Contents (Elt F)) (X : s.Idx → Elt F e) :
    iprop(⌜m.view.read (Elt F) f = X⌝ ∗ (m.view.loc d.tc ↦[m.view.set]{fullShare} f)) ⊢ (m.view.loc d.tc ↦[m.view.set]{fullShare} h.unread X : sProp 𝕄) := by
  iintro ⟨%hf, H⟩; obtain rfl := h.eq_unread hf; iexact H

theorem r2_ld {sz : Fin 2 → ℕ} {e : EltTy} {m : Memref sig .tc .vmem ⟨2, sz⟩ e} (h : m.IsWhole) (X : Shape.Idx ⟨2, sz⟩ → Elt F e)
    (inb : ∀ a, (![0, 0] : Fin 2 → ℕ) a + sz a ≤ sz a) :
    View.readAt (Elt F) m.view (Rect.unit (s := ⟨2, sz⟩) ![0, 0] sz inb).toLoadRect (h.unread X) = X := by
  rw [View.readAt_eq_ld, h.read_unread, View.ld_unit_zero (S := ⟨2, sz⟩) r2_zero_off]

theorem r2_st0 {s : Shape} {e : EltTy} (v : View sig .tc .vmem s e) (f : v.ty.Contents (Elt F)) {off : Fin s.rank → ℕ} (hoff : off = fun _ => 0)
    (inb : ∀ a, off a + s.size a ≤ s.size a) (w : s.Idx → Elt F e) (L : List (View.Piece (Elt F) s e)) :
    v.read (Elt F) (v.writes (Elt F) f (⟨Rect.unit off s.size inb, w⟩ :: L)) = w := by
  rw [View.read_writes_eq_canon _ _ _ (fun y => ⟨_, List.mem_cons_self, View.mem_set_unit_zero hoff inb y⟩), View.canon_cons_unit_zero hoff]

theorem r2_st {sz : Fin 2 → ℕ} {e : EltTy} (v : View sig .tc .vmem ⟨2, sz⟩ e) (f : v.ty.Contents (Elt F)) (inb : ∀ a, (![0, 0] : Fin 2 → ℕ) a + sz a ≤ sz a)
    (w : Shape.Idx ⟨2, sz⟩ → Elt F e) (L : List (View.Piece (Elt F) ⟨2, sz⟩ e)) :
    v.read (Elt F) (v.writes (Elt F) f (⟨Rect.unit (s := ⟨2, sz⟩) ![0, 0] sz inb, w⟩ :: L)) = w :=
  r2_st0 (s := ⟨2, sz⟩) v f r2_zero_off inb w L

theorem r2_cov {sz : Fin 2 → ℕ} {e : EltTy} (v : View sig .tc .vmem ⟨2, sz⟩ e) (inb : ∀ a, (![0, 0] : Fin 2 → ℕ) a + sz a ≤ sz a) (w : Shape.Idx ⟨2, sz⟩ → Elt F e) :
    v.readCov [(⟨Rect.unit (s := ⟨2, sz⟩) ![0, 0] sz inb, w⟩ : View.Piece (Elt F) ⟨2, sz⟩ e)] (Rect.unit (s := ⟨2, sz⟩) ![0, 0] sz inb).toLoadRect = w :=
  View.readCov_unit_zero (S := ⟨2, sz⟩) v r2_zero_off inb w

section
variable (c : Dev nD) {i : grid2.Coords} {arg1 : Memref sig .tc .vmem S5000x128 .f32} {harg1 : arg1.IsWhole} {arg2 : Memref sig .tc .vmem S1x128 .f32} {harg2 : arg2.IsWhole} {arg3 : Memref sig .tc .vmem S1x128 .f32} {harg3 : arg3.IsWhole} {arg4 : Memref sig .tc .vmem S128x128 .f32} {harg4 : arg4.IsWhole} {arg5 : Memref sig .tc .vmem S1x128 .f32} {harg5 : arg5.IsWhole} {arg6 : Memref sig .tc .vmem S5000x128 .f32} {harg6 : arg6.IsWhole} {arg7 : Memref sig .tc .vmem S1x128 .f32} {harg7 : arg7.IsWhole} {arg8 : Memref sig .tc .vmem S1x128 .f32} {harg8 : arg8.IsWhole} {arg9 : Memref sig .tc .vmem S1x128 .f32} {harg9 : arg9.IsWhole} {arg10 : Memref sig .tc .vmem S1x128 .f32} {harg10 : arg10.IsWhole}
  {x0 : Vec F S5000x128 .f32} {x1 x2 : Vec F S1x128 .f32} {x3 : Vec F S128x128 .f32} {x4 : Vec F S1x128 .f32} {x5 : Vec F S5000x128 .f32} {x6 x7 s0 s1 : Vec F S1x128 .f32}

set_option maxHeartbeats 1000000 in
theorem run2_A {E : Set ℕ} {K : PUnit → sProp 𝕄} (hc0 : cond2_0 i) (hc1 : ¬cond2_1 i) :
    iprop(owns c.tc arg1 fullShare x0 ∗ owns c.tc arg2 fullShare x1 ∗ owns c.tc arg3 fullShare x2 ∗ owns c.tc arg4 fullShare x3 ∗ owns c.tc arg5 fullShare x4
        ∗ owns c.tc arg6 fullShare x5 ∗ owns c.tc arg9 fullShare s0 ∗ owns c.tc arg10 fullShare s1
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k2_pay4 x0 x1 x2 x3 x4) ∗ owns c.tc arg9 fullShare (k2_pay5 x0 x1 x2 x3 x4 k2_pay2) ∗ owns c.tc arg10 fullShare (k2_pay1 (k2_pay4 x0 x1 x2 x3 x4) k2_pay3)) -∗ K ⟨⟩))
      ⊢ wp frame (wpE (defs₀ (F := F)) Variants.none c none) E (cc2__mlp2_kernel i arg1 harg1 arg2 harg2 arg3 harg3 arg4 harg4 arg5 harg5 arg6 harg6 arg7 harg7 arg8 harg8 arg9 harg9 arg10 harg10) K := by
  simp only [owns_unread harg1, owns_unread harg2, owns_unread harg3, owns_unread harg4, owns_unread harg5, owns_unread harg6, owns_unread harg9, owns_unread harg10]
  simp only [cc2__mlp2_kernel_eq_skeleton]; unfold cc2__mlp2_kernel_skel
  simp only [k2_part1_eq_skeleton]; unfold k2_part1_skel
  iintro ⟨H0, H1, H2, H3, H4, H5, HS0, HS1, Hk⟩
  sl_exec (disch := first | exact hc0 | exact hc1)
  sl_step
  iapply Hk
  iframe
  isplitl [H5]; · iapply r2_put harg6; iframe; ipureintro; simp only [r2_st, r2_ld]
  isplitl [HS0]; · iapply r2_put harg9; iframe; ipureintro; sl_unfold_run_names; simp only [r2_st, r2_cov, r2_ld]
  iapply r2_put harg10; iframe; ipureintro; sl_unfold_run_names; simp only [r2_st, r2_cov, r2_ld]

set_option maxHeartbeats 1000000 in
theorem run2_B {E : Set ℕ} {K : PUnit → sProp 𝕄} (hc0 : ¬cond2_0 i) (hc1 : ¬cond2_1 i) :
    iprop(owns c.tc arg1 fullShare x0 ∗ owns c.tc arg2 fullShare x1 ∗ owns c.tc arg3 fullShare x2 ∗ owns c.tc arg4 fullShare x3 ∗ owns c.tc arg5 fullShare x4
        ∗ owns c.tc arg6 fullShare x5 ∗ owns c.tc arg9 fullShare s0 ∗ owns c.tc arg10 fullShare s1
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k2_pay4 x0 x1 x2 x3 x4) ∗ owns c.tc arg9 fullShare (k2_pay5 x0 x1 x2 x3 x4 s0) ∗ owns c.tc arg10 fullShare (k2_pay1 (k2_pay4 x0 x1 x2 x3 x4) s1)) -∗ K ⟨⟩))
      ⊢ wp frame (wpE (defs₀ (F := F)) Variants.none c none) E (cc2__mlp2_kernel i arg1 harg1 arg2 harg2 arg3 harg3 arg4 harg4 arg5 harg5 arg6 harg6 arg7 harg7 arg8 harg8 arg9 harg9 arg10 harg10) K := by
  simp only [owns_unread harg1, owns_unread harg2, owns_unread harg3, owns_unread harg4, owns_unread harg5, owns_unread harg6, owns_unread harg9, owns_unread harg10]
  simp only [cc2__mlp2_kernel_eq_skeleton]; unfold cc2__mlp2_kernel_skel
  simp only [k2_part1_eq_skeleton]; unfold k2_part1_skel
  iintro ⟨H0, H1, H2, H3, H4, H5, HS0, HS1, Hk⟩
  sl_exec (disch := first | exact hc0 | exact hc1)
  sl_step
  iapply Hk
  iframe
  isplitl [H5]; · iapply r2_put harg6; iframe; ipureintro; simp only [r2_st, r2_ld]
  isplitl [HS0]; · iapply r2_put harg9; iframe; ipureintro; simp only [r2_st, r2_ld]
  iapply r2_put harg10; iframe; ipureintro; simp only [r2_st, r2_ld]

set_option maxHeartbeats 1000000 in
theorem run2_C {E : Set ℕ} {K : PUnit → sProp 𝕄} (hc0 : ¬cond2_0 i) (hc1 : cond2_1 i) :
    iprop(owns c.tc arg1 fullShare x0 ∗ owns c.tc arg2 fullShare x1 ∗ owns c.tc arg3 fullShare x2 ∗ owns c.tc arg4 fullShare x3 ∗ owns c.tc arg5 fullShare x4
        ∗ owns c.tc arg6 fullShare x5 ∗ owns c.tc arg7 fullShare x6 ∗ owns c.tc arg8 fullShare x7 ∗ owns c.tc arg9 fullShare s0 ∗ owns c.tc arg10 fullShare s1
        ∗ (iprop(owns c.tc arg1 fullShare x0 ∗ owns c.tc arg2 fullShare x1 ∗ owns c.tc arg3 fullShare x2 ∗ owns c.tc arg4 fullShare x3 ∗ owns c.tc arg5 fullShare x4
            ∗ owns c.tc arg6 fullShare (k2_pay4 x0 x1 x2 x3 x4) ∗ owns c.tc arg7 fullShare (k2_pay5 x0 x1 x2 x3 x4 s0) ∗ owns c.tc arg8 fullShare (k2_pay1 (k2_pay4 x0 x1 x2 x3 x4) s1)
            ∗ owns c.tc arg9 fullShare (k2_pay5 x0 x1 x2 x3 x4 s0) ∗ owns c.tc arg10 fullShare (k2_pay1 (k2_pay4 x0 x1 x2 x3 x4) s1)) -∗ K ⟨⟩))
      ⊢ wp frame (wpE (defs₀ (F := F)) Variants.none c none) E (cc2__mlp2_kernel i arg1 harg1 arg2 harg2 arg3 harg3 arg4 harg4 arg5 harg5 arg6 harg6 arg7 harg7 arg8 harg8 arg9 harg9 arg10 harg10) K := by
  simp only [owns_unread harg1, owns_unread harg2, owns_unread harg3, owns_unread harg4, owns_unread harg5, owns_unread harg6, owns_unread harg7, owns_unread harg8, owns_unread harg9, owns_unread harg10]
  simp only [cc2__mlp2_kernel_eq_skeleton]; unfold cc2__mlp2_kernel_skel
  simp only [k2_part1_eq_skeleton]; unfold k2_part1_skel
  iintro ⟨H0, H1, H2, H3, H4, H5, H6, H7, HS0, HS1, Hk⟩
  sl_exec (disch := first | exact hc0 | exact hc1)
  sl_step
  iapply Hk
  iframe
  isplitl [H5]; · iapply r2_put harg6; iframe; ipureintro; simp only [r2_st, r2_ld]
  isplitl [H6]; · iapply r2_put harg7; iframe; ipureintro; sl_unfold_run_names; simp only [r2_st, r2_cov, r2_ld]
  isplitl [H7]; · iapply r2_put harg8; iframe; ipureintro; sl_unfold_run_names; simp only [r2_st, r2_cov, r2_ld]
  isplitl [HS0]; · iapply r2_put harg9; iframe; ipureintro; sl_unfold_run_names; simp only [r2_st, r2_cov, r2_ld]
  iapply r2_put harg10; iframe; ipureintro; sl_unfold_run_names; simp only [r2_st, r2_cov, r2_ld]

end

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1x128 .f32 × Vec F S1x128 .f32
  | 0, h => (k2_pay5 (iblk2 V c 0 ⟨0, h⟩) (iblk2 V c 1 ⟨0, h⟩) (iblk2 V c 2 ⟨0, h⟩) (iblk2 V c 3 ⟨0, h⟩) (iblk2 V c 4 ⟨0, h⟩) k2_pay2,
      k2_pay1 (k2_pay4 (iblk2 V c 0 ⟨0, h⟩) (iblk2 V c 1 ⟨0, h⟩) (iblk2 V c 2 ⟨0, h⟩) (iblk2 V c 3 ⟨0, h⟩) (iblk2 V c 4 ⟨0, h⟩)) k2_pay3)
  | n + 1, h => (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (acc2 c n (Nat.lt_of_succ_lt h)).1,
      k2_pay1 (k2_pay4 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)) (acc2 c n (Nat.lt_of_succ_lt h)).2)

theorem acc2_first (c : Dev nD) (t : Fin cfg2.N) (hz : t.val = 0) :
    (acc2 V c t.val t.isLt).1 = k2_pay5 (iblk2 V c 0 t) (iblk2 V c 1 t) (iblk2 V c 2 t) (iblk2 V c 3 t) (iblk2 V c 4 t) k2_pay2 ∧ (acc2 V c t.val t.isLt).2 = k2_pay1 (k2_pay4 (iblk2 V c 0 t) (iblk2 V c 1 t) (iblk2 V c 2 t) (iblk2 V c 3 t) (iblk2 V c 4 t)) k2_pay3 := by
  obtain ⟨n, hn⟩ := t
  cases n with
  | zero => exact ⟨rfl, rfl⟩
  | succ n => exact absurd hz (Nat.succ_ne_zero n)

theorem acc2_pos (c : Dev nD) (t : Fin cfg2.N) (hz : t.val ≠ 0) :
    (acc2 V c t.val t.isLt).1 = k2_pay5 (iblk2 V c 0 t) (iblk2 V c 1 t) (iblk2 V c 2 t) (iblk2 V c 3 t) (iblk2 V c 4 t) (acc2 V c (t.val - 1) (Nat.lt_of_le_of_lt (Nat.sub_le _ _) t.isLt)).1
    ∧ (acc2 V c t.val t.isLt).2 = k2_pay1 (k2_pay4 (iblk2 V c 0 t) (iblk2 V c 1 t) (iblk2 V c 2 t) (iblk2 V c 3 t) (iblk2 V c 4 t)) (acc2 V c (t.val - 1) (Nat.lt_of_le_of_lt (Nat.sub_le _ _) t.isLt)).2 := by
  obtain ⟨n, hn⟩ := t
  cases n with
  | zero => exact absurd rfl hz
  | succ n => exact ⟨rfl, rfl⟩

abbrev scM2_0 : Memref sig .tc .vmem S1x128 .f32 := Memref.whole cc2_scratch0
abbrev scM2_1 : Memref sig .tc .vmem S1x128 .f32 := Memref.whole cc2_scratch1

theorem PhiA2_eq (c : Dev nD) :
    (Pipeline.ΦA spec2 c : sProp 𝕄)
      = iprop(iprop(iprop((∃ d, owns c.tc scM2_0 fullShare d) ∗ (∃ d, owns c.tc scM2_1 fullShare d))
          ∗ Pipeline.scopedRestBut spec2 c [cc2_scratch0, cc2_scratch1]) ∗ (∃ r, prngReg c r)) := by
  unfold Pipeline.ΦA; rw [scopedRest2_split]; simp only [scM2_0, scM2_1, owns_whole]; rfl

-- the region invariant with the two accumulators at `a`
def inv2 (c : Dev nD) (a : Vec F S1x128 .f32 × Vec F S1x128 .f32) : sProp 𝕄 :=
  iprop(iprop(iprop(owns c.tc scM2_0 fullShare a.1 ∗ owns c.tc scM2_1 fullShare a.2)
    ∗ Pipeline.scopedRestBut spec2 c [cc2_scratch0, cc2_scratch1]) ∗ (∃ r, prngReg c r))

def Phi2 (c : Dev nD) : (n : ℕ) → n ≤ cfg2.N → sProp 𝕄
  | 0, _ => Pipeline.ΦA spec2 c
  | n + 1, hn => inv2 c (acc2 V c n hn)

theorem Phi2_zero (c : Dev nD) (n : ℕ) (h : n ≤ cfg2.N) (hz : n = 0) : Phi2 V c n h = Pipeline.ΦA spec2 c := by
  subst hz; rfl

theorem Phi2_pos (c : Dev nD) (n : ℕ) (h : n ≤ cfg2.N) (hz : n ≠ 0) : Phi2 V c n h = inv2 c (acc2 V c (n - 1) (by omega)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay4 (iblk2 V c 0 t) (iblk2 V c 1 t) (iblk2 V c 2 t) (iblk2 V c 3 t) (iblk2 V c 4 t)
    | ⟨6, _⟩ => (acc2 V c t.val t.isLt).1
    | ⟨7, _⟩ => (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay4 (iblk2 V c 0 t) (iblk2 V c 1 t) (iblk2 V c 2 t) (iblk2 V c 3 t) (iblk2 V c 4 t) := by dsimp only [dat2]
theorem after2_6 (c : Dev nD) (t : Fin cfg2.N) : (dat2 V c).after 6 t = (acc2 V c t.val t.isLt).1 := by dsimp only [dat2]
theorem after2_7 (c : Dev nD) (t : Fin cfg2.N) : (dat2 V c).after 7 t = (acc2 V c t.val t.isLt).2 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

theorem idle2 : ∀ t : Fin cfg2.N, ¬cond2_1 (grid2.coords t) → cfg2.idle 6 (grid2.coords t) = true ∧ cfg2.idle 7 (grid2.coords t) = true
    ∧ (cfg2.win 6).flush t = false ∧ (cfg2.win 7).flush t = false := by decide +kernel
theorem live2 : ∀ t : Fin cfg2.N, cond2_1 (grid2.coords t) → cfg2.idle 6 (grid2.coords t) = false ∧ cfg2.idle 7 (grid2.coords t) = false := by decide +kernel

theorem leaves2 (c : Dev nD) (w : Fin cfg2.W) (t : Fin cfg2.N) (h : cfg2.idle w (cfg2.grid.coords t) = false) :
    (dat2 V c).leavesExact w t = owns c.tc ((cfg2.win w).stage (cfg2.slots t w)) fullShare ((dat2 V c).after w t) := by
  unfold Dat.leavesExact; rw [h]

def bodyPre2 (c : Dev nD) (t : Fin cfg2.N) : sProp 𝕄 :=
  iprop((dat2 V c).Φ t.castSucc ∗ (dat2 V c).owesAt () t.castSucc
    ∗ bigSep Finset.univ fun w : Fin cfg2.W => iprop(∃ d, owns c.tc ((cfg2.win w).stage (cfg2.slots t w)) fullShare ((dat2 V c).before w t d)))

def bodyPost2 (c : Dev nD) (t : Fin cfg2.N) : sProp 𝕄 :=
  iprop((dat2 V c).Φ t.succ ∗ (dat2 V c).owesAt () t.succ ∗ bigSep Finset.univ fun w : Fin cfg2.W => (dat2 V c).leavesExact w t)

set_option maxHeartbeats 4800000 in
-- by cases on the point (first, last, between) the run of that case applies; the invariant lends the two accumulators
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [bigSep_W2, bigSep_W2]
  dsimp only
  simp only [before2_0, before2_1, before2_2, before2_3, before2_4]
  rw [show (dat2 V c).owesAt () t.succ = (dat2 V c).owesAt () t.castSucc from rfl,
    show (dat2 V c).Φ t.succ = inv2 c (acc2 V c t.val t.isLt) from rfl, Phi2_castSucc,
    leaves2 V c 0 t rfl, leaves2 V c 1 t rfl, leaves2 V c 2 t rfl, leaves2 V c 3 t rfl, leaves2 V c 4 t rfl, leaves2 V c 5 t rfl,
    after2_0, after2_1, after2_2, after2_3, after2_4, after2_5]
  by_cases h0 : t.val = 0
  · have hc0 := (hcond2_0 t).mpr h0
    have hc1 : ¬cond2_1 (grid2.coords t) := fun h => by have := (hcond2_1 t).mp h; omega
    rw [Dat.leavesExact_idle _ 6 t (idle2 t hc1).1 (idle2 t hc1).2.2.1, Dat.leavesExact_idle _ 7 t (idle2 t hc1).2.1 (idle2 t hc1).2.2.2,
      Phi2_zero V c _ _ h0, PhiA2_eq]
    unfold inv2
    rw [(acc2_first V c t h0).1, (acc2_first V c t h0).2]
    iintro ⟨⟨⟨⟨⟨%s0, HS0⟩, ⟨%s1, HS1⟩⟩, Hr⟩, Hg⟩, Ho, ⟨%d0, H0⟩, ⟨%d1, H1⟩, ⟨%d2, H2⟩, ⟨%d3, H3⟩, ⟨%d4, H4⟩, ⟨%d5, H5⟩, H6, H7⟩
    iapply (run2_A c hc0 hc1)
    iframe
    iintro ⟨H0, H1, H2, H3, H4, H5, HS0, HS1⟩
    iframe
  · have hc0 : ¬cond2_0 (grid2.coords t) := fun h => h0 ((hcond2_0 t).mp h)
    rw [Phi2_pos V c _ _ h0]
    by_cases h1 : t.val = 127
    · have hc1 := (hcond2_1 t).mpr h1
      rw [leaves2 V c 6 t (live2 t hc1).1, leaves2 V c 7 t (live2 t hc1).2, after2_6, after2_7]
      unfold inv2
      rw [(acc2_pos V c t h0).1, (acc2_pos V c t h0).2]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run2_C c hc0 hc1)
      iframe
      iintro ⟨H0, H1, H2, H3, H4, H5, H6, H7, HS0, HS1⟩
      iframe
    · have hc1 : ¬cond2_1 (grid2.coords t) := fun h => h1 ((hcond2_1 t).mp h)
      rw [Dat.leavesExact_idle _ 6 t (idle2 t hc1).1 (idle2 t hc1).2.2.1, Dat.leavesExact_idle _ 7 t (idle2 t hc1).2.1 (idle2 t hc1).2.2.2]
      unfold inv2
      rw [(acc2_pos V c t h0).1, (acc2_pos V c t h0).2]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, H6, H7⟩
      iapply (run2_B c hc0 hc1)
      iframe
      iintro ⟨H0, H1, H2, H3, H4, H5, HS0, HS1⟩
      iframe

theorem body_obligation2 (c : Dev nD) : BodyObligation (dat2 (F := F) V c) (defs₀ (F := F)) Variants.none () Set.univ := fun t => sound_body2 V c t

theorem hin2 (c : Dev nD) : Pipeline.ΦA spec2 c ⊢ (dat2 V c).Φ 0 := by
  rw [show (dat2 V c).Φ 0 = Pipeline.ΦA spec2 c from rfl]

-- after the last point the accumulators' contents are forgotten
theorem hout2 (c : Dev nD) : (dat2 V c).Φ (Fin.last cfg2.N) ⊢ Pipeline.ΦA spec2 c := by
  rw [show (dat2 V c).Φ (Fin.last cfg2.N) = inv2 c (acc2 V c 127 (by decide)) from rfl, PhiA2_eq]
  unfold inv2
  iintro ⟨⟨⟨HS0, HS1⟩, Hr⟩, Hg⟩
  iframe
  isplitl [HS0]; · iexists _; iexact HS0
  iexists _; iexact HS1

end Cert.KernelIdeal.Hand
end
-- ==== Proof.KI.Reg3.lean ====
import proofs.«426623_j69028714381392_1_alg».proof.Proof.Gen.KernelIdeal.Launch
import proofs.«426623_j69028714381392_1_alg».proof.Proof.Gen.KernelIdeal.Skeleton
import proofs.«426623_j69028714381392_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

private theorem offz : (![0, 0] : Fin 2 → ℕ) = fun _ => 0 := funext fun a => by fin_cases a <;> rfl

set_option maxHeartbeats 1000000 in
theorem sound_kernel3 (c : Dev nD) (E : Set ℕ) (i : grid3.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay1 x0 x1 x2)) -∗ K ⟨⟩))
      ⊢ wp frame (wpE (defs₀ (F := F)) Variants.none c none) E (cc3__finalize_kernel i arg1 harg1 arg2 harg2 arg3 harg3 arg4 harg4) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ fun y => ⟨_, List.mem_singleton_self _, View.mem_set_unit_zero offz inb_S10000x128_S10000x128_0_0 y⟩, View.canon_unit_zero offz]
  rw [View.readAt_eq_ld, View.readAt_eq_ld, View.readAt_eq_ld, View.ld_unit_zero (S := S10000x128) offz, View.ld_unit_zero (S := S1x128) offz, View.ld_unit_zero (S := S1x128) offz]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl

theorem after3_3 (c : Dev nD) (t : Fin cfg3.N) :
    (dat3 V c).after 3 t = k3_pay1 (iblk3 V c 0 t) (iblk3 V c 1 t) (iblk3 V c 2 t) := rfl

theorem before3 (c : Dev nD) (t : Fin cfg3.N) : (∀ d, (dat3 V c).before 0 t d = iblk3 V c 0 t)
    ∧ (∀ d, (dat3 V c).before 1 t d = iblk3 V c 1 t) ∧ ∀ d, (dat3 V c).before 2 t d = iblk3 V c 2 t := by
  refine ⟨?_, ?_, ?_⟩ <;>
    exact fun d => Eq.trans (Dat.before_in_eq_fetched _ _ rfl (fun _ => rfl) (fun _ _ _ => rfl) (fun _ => rfl) t d) rfl

theorem body_obligation3 (c : Dev nD) : BodyObligation (dat3 (F := F) V c) (defs₀ (F := F)) Variants.none () Set.univ := fun t => by
  rw [bigSep_W3, bigSep_W3]
  show iprop((dat3 V c).Φ t.castSucc ∗ (dat3 V c).owesAt () t.castSucc
      ∗ (∃ d, owns (c : Thread nD τ) (st3_0 t) fullShare ((dat3 V c).before 0 t d)) ∗ (∃ d, owns (c : Thread nD τ) (st3_1 t) fullShare ((dat3 V c).before 1 t d))
      ∗ (∃ d, owns (c : Thread nD τ) (st3_2 t) fullShare ((dat3 V c).before 2 t d)) ∗ (∃ d, owns (c : Thread nD τ) (st3_3 t) fullShare ((dat3 V c).before 3 t d)))
    ⊢ wp frame (wpE (defs₀ (F := F)) Variants.none c none) Set.univ (bodyAt3 t) (fun _ => iprop((dat3 V c).Φ t.castSucc
      ∗ (dat3 V c).owesAt () t.castSucc ∗ owns (c : Thread nD τ) (st3_0 t) fullShare (iblk3 V c 0 t) ∗ owns (c : Thread nD τ) (st3_1 t) fullShare (iblk3 V c 1 t)
      ∗ owns (c : Thread nD τ) (st3_2 t) fullShare (iblk3 V c 2 t) ∗ owns (c : Thread nD τ) (st3_3 t) fullShare (k3_pay1 (iblk3 V c 0 t) (iblk3 V c 1 t) (iblk3 V c 2 t))))
  unfold bodyAt3
  simp only [(before3 V c t).1, (before3 V c t).2.1, (before3 V c t).2.2]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  iframe

end Cert.KernelIdeal.Hand

end
-- ==== Proof.KI.RunVals.lean ====
import proofs.«426623_j69028714381392_1_alg».proof.Proof.Gen.KernelIdeal.Regions
import proofs.«426623_j69028714381392_1_alg».proof.Proof.KI.Reg0
import proofs.«426623_j69028714381392_1_alg».proof.Proof.KI.Reg1
import proofs.«426623_j69028714381392_1_alg».proof.Proof.KI.Reg2
import proofs.«426623_j69028714381392_1_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev atTc (X : Dev nD → Valuation τ sig (Elt F)) : (c : Dev nD) → (b : Ref sig .tc) → Buf (Elt F) ((c : Thread nD τ).loc b) :=
  fun c b => X c b

def X1 (c : Dev nD) : Valuation τ sig (Elt F) := V1 m c
abbrev X1' := atTc (X1 m)
def o2 (c : Dev nD) : Buf (Elt F) ((c : Thread nD τ).loc main_v2) := (dat0 (X1' m) c).arrAt 3 cfg0.N
def X2 (c : Dev nD) : Valuation τ sig (Elt F) := Function.update (X1 m c) main_v2 (o2 m c)
abbrev X2' := atTc (X2 m)
def X3 (c : Dev nD) : Valuation τ sig (Elt F) := StableHlo.after hostOps1 (X2 m c)
def X4 (c : Dev nD) : Valuation τ sig (Elt F) := StableHlo.after hostOps1_1 (X3 m c)
def X5 (c : Dev nD) : Valuation τ sig (Elt F) := StableHlo.after hostOps1_2 (X4 m c)
def X6 (c : Dev nD) : Valuation τ sig (Elt F) := StableHlo.after hostOps1_3 (X5 m c)
abbrev X6' := atTc (X6 m)
def o7_0 (c : Dev nD) : Buf (Elt F) ((c : Thread nD τ).loc main_v14_0) := (dat1 (X6' m) c).arrAt 5 cfg1.N
def o7_1 (c : Dev nD) : Buf (Elt F) ((c : Thread nD τ).loc main_v14_1) := (dat1 (X6' m) c).arrAt 6 cfg1.N
def o7_2 (c : Dev nD) : Buf (Elt F) ((c : Thread nD τ).loc main_v14_2) := (dat1 (X6' m) c).arrAt 7 cfg1.N
def X7 (c : Dev nD) : Valuation τ sig (Elt F) :=
  Function.update (Function.update (Function.update (X6 m c) main_v14_0 (o7_0 m c)) main_v14_1 (o7_1 m c)) main_v14_2 (o7_2 m c)
abbrev X7' := atTc (X7 m)
def X8 (c : Dev nD) : Valuation τ sig (Elt F) := StableHlo.after hostOps2 (X7 m c)
abbrev X8' := atTc (X8 m)
def o9_0 (c : Dev nD) : Buf (Elt F) ((c : Thread nD τ).loc main_v31_0) := (dat2 (X8' m) c).arrAt 5 cfg2.N
def o9_1 (c : Dev nD) : Buf (Elt F) ((c : Thread nD τ).loc main_v31_1) := (dat2 (X8' m) c).arrAt 6 cfg2.N
def o9_2 (c : Dev nD) : Buf (Elt F) ((c : Thread nD τ).loc main_v31_2) := (dat2 (X8' m) c).arrAt 7 cfg2.N
def X9 (c : Dev nD) : Valuation τ sig (Elt F) :=
  Function.update (Function.update (Function.update (X8 m c) main_v31_0 (o9_0 m c)) main_v31_1 (o9_1 m c)) main_v31_2 (o9_2 m c)
abbrev X9' := atTc (X9 m)
def X10 (c : Dev nD) : Valuation τ sig (Elt F) := StableHlo.after hostOps3 (X9 m c)
abbrev X10' := atTc (X10 m)
def o11 (c : Dev nD) : Buf (Elt F) ((c : Thread nD τ).loc main_v46) := (dat3 (X10' m) c).arrAt 3 cfg3.N
def X11 (c : Dev nD) : Valuation τ sig (Elt F) := Function.update (X10 m c) main_v46 (o11 m c)
abbrev X11' := atTc (X11 m)

def outs : Outs (F := F) := fun J r c =>
  match J with
  | 2 => X2 m c r
  | 7 => X7 m c r
  | 9 => X9 m c r
  | _ => X11 m c r

theorem ne_dev {a b : Ref sig .tc} (h : a ≠ b) : (Proc.devRef .tc a : DevRef τ sig) ≠ Proc.devRef .tc b :=
  StableHlo.devRef_ne_of_ne h

theorem V1_eq (c : Dev nD) : V1 m c = X1 m c := rfl
theorem V2_eq (c : Dev nD) : V2 m (outs m) c = X2 m c := by
  show Function.update (V1 m c) main_v2 (X2 m c main_v2) = X2 m c
  rw [show X2 m c main_v2 = o2 m c from Function.update_self ..]; rfl
theorem V3_eq (c : Dev nD) : V3 m (outs m) c = X3 m c := congrArg (StableHlo.after hostOps1) (V2_eq m c)
theorem V4_eq (c : Dev nD) : V4 m (outs m) c = X4 m c := congrArg (StableHlo.after hostOps1_1) (V3_eq m c)
theorem V5_eq (c : Dev nD) : V5 m (outs m) c = X5 m c := congrArg (StableHlo.after hostOps1_2) (V4_eq m c)
theorem V6_eq (c : Dev nD) : V6 m (outs m) c = X6 m c := congrArg (StableHlo.after hostOps1_3) (V5_eq m c)
theorem X7_at0 (c : Dev nD) : X7 m c main_v14_0 = o7_0 m c := by
  unfold X7
  rw [Function.update_of_ne (ne_dev (by decide)), Function.update_of_ne (ne_dev (by decide)), Function.update_self]
theorem X7_at1 (c : Dev nD) : X7 m c main_v14_1 = o7_1 m c := by
  unfold X7
  rw [Function.update_of_ne (ne_dev (by decide)), Function.update_self]
theorem X7_at2 (c : Dev nD) : X7 m c main_v14_2 = o7_2 m c := Function.update_self ..
theorem V7_eq (c : Dev nD) : V7 m (outs m) c = X7 m c := by
  show Function.update (Function.update (Function.update (V6 m (outs m) c) main_v14_0 (X7 m c main_v14_0)) main_v14_1 (X7 m c main_v14_1)) main_v14_2 (X7 m c main_v14_2) = X7 m c
  rw [X7_at0, X7_at1, X7_at2, V6_eq]; rfl
theorem V8_eq (c : Dev nD) : V8 m (outs m) c = X8 m c := congrArg (StableHlo.after hostOps2) (V7_eq m c)
theorem X9_at0 (c : Dev nD) : X9 m c main_v31_0 = o9_0 m c := by
  unfold X9
  rw [Function.update_of_ne (ne_dev (by decide)), Function.update_of_ne (ne_dev (by decide)), Function.update_self]
theorem X9_at1 (c : Dev nD) : X9 m c main_v31_1 = o9_1 m c := by
  unfold X9
  rw [Function.update_of_ne (ne_dev (by decide)), Function.update_self]
theorem X9_at2 (c : Dev nD) : X9 m c main_v31_2 = o9_2 m c := Function.update_self ..
theorem V9_eq (c : Dev nD) : V9 m (outs m) c = X9 m c := by
  show Function.update (Function.update (Function.update (V8 m (outs m) c) main_v31_0 (X9 m c main_v31_0)) main_v31_1 (X9 m c main_v31_1)) main_v31_2 (X9 m c main_v31_2) = X9 m c
  rw [X9_at0, X9_at1, X9_at2, V8_eq]; rfl
theorem V10_eq (c : Dev nD) : V10 m (outs m) c = X10 m c := congrArg (StableHlo.after hostOps3) (V9_eq m c)
theorem X11_main_v46 (c : Dev nD) : X11 m c main_v46 = o11 m c := Function.update_self ..
theorem V11_eq (c : Dev nD) : V11 m (outs m) c = X11 m c := by
  show Function.update (V10 m (outs m) c) main_v46 (X11 m c main_v46) = X11 m c
  rw [X11_main_v46, V10_eq]; rfl

theorem X2_of_ne (c : Dev nD) (b : Ref sig .tc) (h : b ≠ main_v2) : X2 m c b = X1 m c b :=
  Function.update_of_ne (ne_dev h) ..
theorem X2_main_v2 (c : Dev nD) : X2 m c main_v2 = o2 m c := Function.update_self ..
theorem X7_of_ne (c : Dev nD) (b : Ref sig .tc) (h0 : b ≠ main_v14_0) (h1 : b ≠ main_v14_1) (h2 : b ≠ main_v14_2) :
    X7 m c b = X6 m c b := by
  unfold X7
  rw [Function.update_of_ne (ne_dev h2), Function.update_of_ne (ne_dev h1), Function.update_of_ne (ne_dev h0)]
theorem X9_of_ne (c : Dev nD) (b : Ref sig .tc) (h0 : b ≠ main_v31_0) (h1 : b ≠ main_v31_1) (h2 : b ≠ main_v31_2) :
    X9 m c b = X8 m c b := by
  unfold X9
  rw [Function.update_of_ne (ne_dev h2), Function.update_of_ne (ne_dev h1), Function.update_of_ne (ne_dev h0)]
theorem X11_of_ne (c : Dev nD) (b : Ref sig .tc) (h : b ≠ main_v46) : X11 m c b = X10 m c b :=
  Function.update_of_ne (ne_dev h) ..

theorem ne_arr {W : ℕ} {f : Fin W → Ref sig .tc} {b : Ref sig .tc} (hb : b ∉ Finset.univ.image f) (k : Fin W) : b ≠ f k :=
  fun e => hb (Finset.mem_image.mpr ⟨k, Finset.mem_univ _, e.symm⟩)

theorem hFin0 (c : Dev nD) (w : Fin cfg0.W) (hw : (cfg0.win w).isOut = false) (h0 : Pipeline.arrRef spec0 w ≠ main_v2) :
    (dat0 (X1' m) c).arrAt w cfg0.N = X2' m c (Pipeline.arrRef spec0 w) :=
  ((dat0 (X1' m) c).arrAt_in w hw _).trans <| (A_eq0 (X1' m) c w).trans (X2_of_ne m c _ h0).symm
theorem hF0 (c : Dev nD) : ∀ w, (dat0 (X1' m) c).arrAt w cfg0.N = X2' m c (Pipeline.arrRef spec0 w)
  | ⟨0, _⟩ => hFin0 m c 0 rfl (by decide)
  | ⟨1, _⟩ => hFin0 m c 1 rfl (by decide)
  | ⟨2, _⟩ => hFin0 m c 2 rfl (by decide)
  | ⟨3, _⟩ => (X2_main_v2 m c).symm
theorem hrest0 (c : Dev nD) : ∀ b, b ∉ Finset.univ.image (Pipeline.arrRef spec0) → X2' m c b = X1' m c b :=
  fun b hb => X2_of_ne m c b (ne_arr hb 3)

theorem hFin1 (c : Dev nD) (w : Fin cfg1.W) (hw : (cfg1.win w).isOut = false) (h0 : Pipeline.arrRef spec1 w ≠ main_v14_0) (h1 : Pipeline.arrRef spec1 w ≠ main_v14_1) (h2 : Pipeline.arrRef spec1 w ≠ main_v14_2) :
    (dat1 (X6' m) c).arrAt w cfg1.N = X7' m c (Pipeline.arrRef spec1 w) :=
  ((dat1 (X6' m) c).arrAt_in w hw _).trans <| (A_eq1 (X6' m) c w).trans (X7_of_ne m c _ h0 h1 h2).symm
theorem hF1 (c : Dev nD) : ∀ w, (dat1 (X6' m) c).arrAt w cfg1.N = X7' m c (Pipeline.arrRef spec1 w)
  | ⟨0, _⟩ => hFin1 m c 0 rfl (by decide) (by decide) (by decide)
  | ⟨1, _⟩ => hFin1 m c 1 rfl (by decide) (by decide) (by decide)
  | ⟨2, _⟩ => hFin1 m c 2 rfl (by decide) (by decide) (by decide)
  | ⟨3, _⟩ => hFin1 m c 3 rfl (by decide) (by decide) (by decide)
  | ⟨4, _⟩ => hFin1 m c 4 rfl (by decide) (by decide) (by decide)
  | ⟨5, _⟩ => (X7_at0 m c).symm
  | ⟨6, _⟩ => (X7_at1 m c).symm
  | ⟨7, _⟩ => (X7_at2 m c).symm
theorem hrest1 (c : Dev nD) : ∀ b, b ∉ Finset.univ.image (Pipeline.arrRef spec1) → X7' m c b = X6' m c b :=
  fun b hb => X7_of_ne m c b (ne_arr hb 5) (ne_arr hb 6) (ne_arr hb 7)

theorem hFin2 (c : Dev nD) (w : Fin cfg2.W) (hw : (cfg2.win w).isOut = false) (h0 : Pipeline.arrRef spec2 w ≠ main_v31_0) (h1 : Pipeline.arrRef spec2 w ≠ main_v31_1) (h2 : Pipeline.arrRef spec2 w ≠ main_v31_2) :
    (dat2 (X8' m) c).arrAt w cfg2.N = X9' m c (Pipeline.arrRef spec2 w) :=
  ((dat2 (X8' m) c).arrAt_in w hw _).trans <| (A_eq2 (X8' m) c w).trans (X9_of_ne m c _ h0 h1 h2).symm
theorem hF2 (c : Dev nD) : ∀ w, (dat2 (X8' m) c).arrAt w cfg2.N = X9' m c (Pipeline.arrRef spec2 w)
  | ⟨0, _⟩ => hFin2 m c 0 rfl (by decide) (by decide) (by decide)
  | ⟨1, _⟩ => hFin2 m c 1 rfl (by decide) (by decide) (by decide)
  | ⟨2, _⟩ => hFin2 m c 2 rfl (by decide) (by decide) (by decide)
  | ⟨3, _⟩ => hFin2 m c 3 rfl (by decide) (by decide) (by decide)
  | ⟨4, _⟩ => hFin2 m c 4 rfl (by decide) (by decide) (by decide)
  | ⟨5, _⟩ => (X9_at0 m c).symm
  | ⟨6, _⟩ => (X9_at1 m c).symm
  | ⟨7, _⟩ => (X9_at2 m c).symm
theorem hrest2 (c : Dev nD) : ∀ b, b ∉ Finset.univ.image (Pipeline.arrRef spec2) → X9' m c b = X8' m c b :=
  fun b hb => X9_of_ne m c b (ne_arr hb 5) (ne_arr hb 6) (ne_arr hb 7)

theorem hFin3 (c : Dev nD) (w : Fin cfg3.W) (hw : (cfg3.win w).isOut = false) (h0 : Pipeline.arrRef spec3 w ≠ main_v46) :
    (dat3 (X10' m) c).arrAt w cfg3.N = X11' m c (Pipeline.arrRef spec3 w) :=
  ((dat3 (X10' m) c).arrAt_in w hw _).trans <| (A_eq3 (X10' m) c w).trans (X11_of_ne m c _ h0).symm
theorem hF3 (c : Dev nD) : ∀ w, (dat3 (X10' m) c).arrAt w cfg3.N = X11' m c (Pipeline.arrRef spec3 w)
  | ⟨0, _⟩ => hFin3 m c 0 rfl (by decide)
  | ⟨1, _⟩ => hFin3 m c 1 rfl (by decide)
  | ⟨2, _⟩ => hFin3 m c 2 rfl (by decide)
  | ⟨3, _⟩ => (X11_main_v46 m c).symm
theorem hrest3 (c : Dev nD) : ∀ b, b ∉ Finset.univ.image (Pipeline.arrRef spec3) → X11' m c b = X10' m c b :=
  fun b hb => X11_of_ne m c b (ne_arr hb 3)

end Cert.KernelIdeal.Hand

end
-- ==== Proof.KI.RunRegs.lean ====
import proofs.«426623_j69028714381392_1_alg».proof.Proof.KI.RunVals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

def pdats : (p : Fin 4) → (c : Dev nD) → Dat τ (Elt F) Unit ℕ (UR sig nD τ) ℕ (cfgs p) c
  | ⟨0, _⟩ => fun c => dat0 (X1' m) c
  | ⟨1, _⟩ => fun c => dat1 (X6' m) c
  | ⟨2, _⟩ => fun c => dat2 (X8' m) c
  | ⟨3, _⟩ => fun c => dat3 (X10' m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
def mkSeg (p : Fin 4) (la : Pipeline.LaunchFacts (nD := nD) (τ := τ) cfgs p) (Xi Xo : Dev nD → Valuation τ sig (Elt F))
    (hb : ∀ c, BodyObligation (pdats m p c) (defs₀ (F := F)) Variants.none () Set.univ)
    (h0 : ∀ c t, (pdats m p c).owed t = 0) (hq : ∀ c w, (pdats m p c).q w = fullShare)
    (hrec : ∀ c t, (pdats m p c).recorded t = Set.univ)
    (hA : ∀ c w, (pdats m p c).A w = atTc Xi c (Pipeline.arrRef (cfgs p).spec w))
    (hF : ∀ c w, (pdats m p c).arrAt w (cfgs p).N = atTc Xo c (Pipeline.arrRef (cfgs p).spec w))
    (hrest : ∀ c b, b ∉ Finset.univ.image (Pipeline.arrRef (cfgs p).spec) → atTc Xo c b = atTc Xi c b)
    (hin : ∀ c, Pipeline.ΦA (cfgs p).spec c ⊢ (pdats m p c).Φ 0)
    (hout : ∀ c, (pdats m p c).Φ (Fin.last _) ⊢ Pipeline.ΦA (cfgs p).spec c) :
    RegionSeg (pcfgs (F := F)) adm (pdats m) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Xi c) ∗ R c)
  post c := iprop(StableHlo.held (c : Thread nD τ) (Pipeline.ucRefs τ sig) (Xo c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Xi c)
  hentry c := by
    rw [Pipeline.ownSems0_none]
    have hsplit := Pipeline.arrays_of_unscopedBufs (p := p) (pcfgs (F := F)) adm (pdats m) la.win la.arr_whole c
      ((pdats m p c).share_full (hq c)) (atTc Xi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0, hrec]
      icases HO with ⟨%W, HO⟩; iexists W; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c))
      (atTc Xi c) (atTc Xo c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

def reg0 := mkSeg m 0 launch0 (X1 m) (X2 m) (body_obligation0 (X1' m)) (fun _ _ => rfl) (fun _ _ => rfl) (fun _ _ => rfl)
  (A_eq0 (X1' m)) (hF0 m) (hrest0 m) (fun _ => .rfl) (fun _ => .rfl)
def reg1 := mkSeg m 1 launch1 (X6 m) (X7 m) (body_obligation1 (X6' m)) (fun _ _ => rfl) (fun _ _ => rfl) (fun _ _ => rfl)
  (A_eq1 (X6' m)) (hF1 m) (hrest1 m) (hin1 (X6' m)) (hout1 (X6' m))
def reg2 := mkSeg m 2 launch2 (X8 m) (X9 m) (body_obligation2 (X8' m)) (fun _ _ => rfl) (fun _ _ => rfl) (fun _ _ => rfl)
  (A_eq2 (X8' m)) (hF2 m) (hrest2 m) (hin2 (X8' m)) (hout2 (X8' m))
def reg3 := mkSeg m 3 launch3 (X10 m) (X11 m) (body_obligation3 (X10' m)) (fun _ _ => rfl) (fun _ _ => rfl) (fun _ _ => rfl)
  (A_eq3 (X10' m)) (hF3 m) (hrest3 m) (fun _ => .rfl) (fun _ => .rfl)

end Cert.KernelIdeal.Hand

end
-- ==== Proof.KI.RunCond.lean ====
import proofs.«426623_j69028714381392_1_alg».proof.Proof.KI.RunRegs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem held_eq {c : Dev nD} {X Y : Valuation τ sig (Elt F)} (h : Y = X) :
    iprop(StableHlo.held (c : Thread nD τ) (Pipeline.ucRefs τ sig) X ∗ R c) ⊢ iprop(StableHlo.held (c : Thread nD τ) (Pipeline.ucRefs τ sig) Y ∗ R c) :=
  h ▸ .rfl

set_option backward.isDefEq.respectTransparency.types false in
theorem run_main : θ_run defs (onTc (τ := τ) (main (F := F))) ⟨m, fun _ => 0, ρ⟩ (fun r => ∀ c : Dev nD, ∀ b ∈ Pipeline.ucRefs τ sig,
      r.2.mem ((c : Thread nD τ).1, b) = V11 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m) (reg3 m))
    (fun c Q => by
      rewrite [main_chain c, Seg.run_eq_chain,
        show (segs m (outs m) 𝒱₀ L lv (fun _ => R) () (pdats m) (reg0 m) (reg1 m) (reg2 m) (reg3 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V11 m (outs m) c))
    (hch := fun c => ⟨.rfl, .rfl, held_eq (V2_eq m c), .rfl, .rfl, .rfl, held_eq (V6_eq m c).symm, held_eq (V7_eq m c),
      held_eq (V8_eq m c).symm, held_eq (V9_eq m c), held_eq (V10_eq m c).symm,
      (held_eq (V11_eq m c)).trans (sep_mono .rfl (by iintro ⟨-, HO⟩; iexact HO))⟩)
    (hinit := ?_) (QY := fun c s => ∀ b ∈ Pipeline.ucRefs τ sig, s.mem ((c : Thread nD τ).1, b) = V11 m (outs m) c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · have hE0 : iprop((bigSep Finset.univ fun c : Dev nD => iprop(unscopedSems0 c ∗ owes (c : Thread nD τ) (0 : CellTallies nD τ sig Unit) ∅
          ∗ Pipeline.launchCred (0 : Dev nD → CellTallies nD τ sig Unit) c ∗ prngReg c (ρ c) ∗ emp)) ∗ levAts L lv)
        ⊢ (|={Set.univ}=> bigSep Finset.univ R : sProp 𝕄) := by
      refine Pipeline.initEach L lv fun c => ?_
      iintro ⟨⟨-, HO, -, Hp, -⟩, -⟩
      imodintro
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (0 : Dev nD → CellTallies nD τ sig Unit) c ∗ prngReg c (ρ c) ∗ emp)) : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep' _ fun c : Dev nD => StableHlo.held (c : Thread nD τ) (Pipeline.ucRefs τ sig) (V0 m c)]
    isplitl [Hh]; · iexact Hh
    iexact HE
  · unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact h
    · iexact HSI

end Cert.KernelIdeal.Hand

end
-- ==== Proof.KI.Run.lean ====
import proofs.«426623_j69028714381392_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_value : θ_run defs (onTc (τ := τ) (main (F := F))) ⟨m, fun _ => 0, ρ⟩ (fun r => ∀ c : Dev nD,
      r.2.mem ((c.tc : Thread nD τ).loc main_v46) = o11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun r hr c =>
    ⟨(hr c _ (mem_uc main_v46 (by decide))).trans ((congrFun (V11_eq m c) _).trans (X11_main_v46 m c)),
     (hr c _ (mem_uc main_arg0 (by decide))).trans (V11_main_arg0 m (outs m) c),
     (hr c _ (mem_uc main_arg1 (by decide))).trans (V11_main_arg1 m (outs m) c),
     (hr c _ (mem_uc main_arg2 (by decide))).trans (V11_main_arg2 m (outs m) c),
     (hr c _ (mem_uc main_arg3 (by decide))).trans (V11_main_arg3 m (outs m) c),
     (hr c _ (mem_uc main_arg4 (by decide))).trans (V11_main_arg4 m (outs m) c),
     (hr c _ (mem_uc main_arg5 (by decide))).trans (V11_main_arg5 m (outs m) c),
     (hr c _ (mem_uc main_arg6 (by decide))).trans (V11_main_arg6 m (outs m) c),
     (hr c _ (mem_uc main_arg7 (by decide))).trans (V11_main_arg7 m (outs m) c),
     (hr c _ (mem_uc main_arg8 (by decide))).trans (V11_main_arg8 m (outs m) c),
     (hr c _ (mem_uc main_arg9 (by decide))).trans (V11_main_arg9 m (outs m) c),
     (hr c _ (mem_uc main_arg10 (by decide))).trans (V11_main_arg10 m (outs m) c),
     (hr c _ (mem_uc main_arg11 (by decide))).trans (V11_main_arg11 m (outs m) c),
     (hr c _ (mem_uc main_arg12 (by decide))).trans (V11_main_arg12 m (outs m) c)⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun _ h c => (h c).2) (run_value m ρ)

end Cert.KernelIdeal.Hand

end
-- ==== Proof.KV.Reg0Val.lean ====
import proofs.«426623_j69028714381392_1_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

theorem lhs_lin_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

theorem rhs_lin_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem matmul_lin_apply (lhs : FVec Ideal S10000x128 .bf16) (rhs : FVec Ideal S128x128 .bf16) (p : Fin 10000) (q : Fin 128) :
    matmul dot_S10000x128_S128x128_S10000x128_1_0_0_1_n_n none lhs rhs (constant S10000x128 .f32 0x00000000#32) (ix2 p q)
      = ∑ k : Fin 128, lhs (ix2 p k) * rhs (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  exact congrArg₂ (lhs · * rhs ·) (Shape.idx_ext₂ (lhs_lin_0 _ _) ((DotDims.lhsIdx_val_of_single _ rfl _ _).trans hk))
    (Shape.idx_ext₂ ((DotDims.rhsIdx_val_of_single _ rfl _ _).trans hk) (rhs_lin_1 _ _))

theorem k0_pay1_apply (x0 : Vec Ideal S10000x128 .f32) (x1 : Vec Ideal S128x128 .f32) (x2 : Vec Ideal S1x128 .f32) (p : Fin 10000) (q : Fin 128) :
    k0_pay1 x0 x1 x2 (ix2 p q) = (∑ k : Fin 128, x0 (ix2 p k) * x1 (ix2 k q)) + x2 (ix2 (0 : Fin 1) q) := by
  unfold k0_pay1
  rw [addf_apply, matmul_lin_apply, shapeCast_self, shapeCast_self, broadcastTo_1b_ab_apply]
  simp only [truncf_apply]

theorem index_maps0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (1 : Fin 2) = 0
    ∧ win0_3.index t (0 : Fin 2) = t.val ∧ win0_3.index t (1 : Fin 2) = 0 :=
  (by decide +kernel : ∀ t : Fin grid0.N, _)

-- Row r of the result lies in block r / 10000.
theorem cover0 (i : S50000x128.Idx) : ∃ t : Fin cfg0.N, (cfg0.win 3).flush t = true ∧ i ∈ ((cfg0.win 3).blk t).view.set := by
  have hi0 := idx2_lt0 i
  have hi1 := idx2_lt1 i
  have hN : cfg0.N = 5 := N_0
  obtain ⟨t, ht⟩ : ∃ t : Fin cfg0.N, t.val = (i 0).val / 10000 := ⟨⟨_, by omega⟩, rfl⟩
  obtain ⟨-, -, -, -, -, e30, e31⟩ := index_maps0 t
  refine ⟨t, flush0_3 _, ?_⟩
  show i ∈ ((View.whole main_v2).slice (win0_3.rect t)).set
  rw [View.set_slice_whole, Rect.mem_set_unit]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

variable (V : (c : Dev nD) → (b : Ref sig .tc) → Buf (Elt Ideal) ((c : Thread nD τ).loc b))

theorem reg0_val (c : Dev nD) (x : Fin 50000 → Fin 128 → EReal) (Wt : Fin 128 → Fin 128 → EReal) (b : Fin 128 → EReal)
    (hx : ∀ i k, (V c main_arg0 : S50000x128.Idx → EReal) (ix2 i k) = x i k)
    (hW : ∀ k j, (V c main_v0 : S128x128.Idx → EReal) (ix2 k j) = Wt k j)
    (hb : ∀ j, (V c main_v1 : S1x128.Idx → EReal) (ix2 (0 : Fin 1) j) = b j) :
    ∀ (i : Fin 50000) (j : Fin 128), ((dat0 V c).arrAt 3 cfg0.N : S50000x128.Idx → EReal) (ix2 i j) = (∑ k : Fin 128, x i k * Wt k j) + b j := by
  refine fun i j => congrFun ((dat0 V c).arrAt_eq_of_cover 3
    (fun i => (∑ k : Fin 128, x (i 0) k * Wt k (i 1)) + b (i 1) : S50000x128.Idx → EReal) (fun t _ => ?_) cover0) (ix2 i j)
  show (cfg0.win 3).cut (grid0.coords t) ((dat0 V c).after 3 t) = _
  rw [after0_3]
  funext y
  obtain ⟨p, q, rfl⟩ : ∃ (p : Fin 10000) (q : Fin 128), y = ix2 p q := ⟨y 0, y 1, eq_ix2 y⟩
  obtain ⟨e00, e01, e10, e11, e21, e30, e31⟩ := index_maps0 t
  let E : S50000x128.Idx := ((cfg0.win 3).blk t).view.emb (ix2 p q)
  have h0 : ∀ k : Fin 128, iblk0 V c 0 t (ix2 p k) = x (E 0) k := fun k => (congrArg (V c main_arg0) (Shape.idx_ext₂
    (by show win0_0.index t (0 : Fin 2) * 10000 + 1 * p.val = win0_3.index t (0 : Fin 2) * 10000 + 1 * p.val; omega)
    (by show win0_0.index t (1 : Fin 2) * 128 + 1 * k.val = k.val; omega))).trans (hx _ k)
  have h1 : ∀ k : Fin 128, iblk0 V c 1 t (ix2 k q) = Wt k (E 1) := fun k => (congrArg (V c main_v0) (Shape.idx_ext₂
    (by show win0_1.index t (0 : Fin 2) * 128 + 1 * k.val = k.val; omega)
    (by show win0_1.index t (1 : Fin 2) * 128 + 1 * q.val = win0_3.index t (1 : Fin 2) * 128 + 1 * q.val; omega))).trans (hW k _)
  have h2 : iblk0 V c 2 t (ix2 (0 : Fin 1) q) = b (E 1) := (congrArg (V c main_v1) (Shape.idx_ext₂
    (Nat.lt_one_iff.mp (Fin.isLt _))
    (by show win0_2.index t (1 : Fin 2) * 128 + 1 * q.val = win0_3.index t (1 : Fin 2) * 128 + 1 * q.val; omega))).trans (hb _)
  show k0_pay1 (iblk0 V c 0 t) (iblk0 V c 1 t) (iblk0 V c 2 t) (ix2 p q) = _
  rw [k0_pay1_apply, h2]
  exact congrArg (· + _) (Finset.sum_congr rfl fun k _ => by rw [h0, h1])

end Cert.KernelIdeal.Val
end
-- ==== Proof.KV.Pay1.lean ====
import proofs.«426623_j69028714381392_1_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

-- Entry (p, j) of a block of rows times a 128 × 128 matrix: the sum over k of l (p, k) · w (k, j).
theorem mm_apply {φ₁ φ₂ : FTy} (l : FVec Ideal S5000x128 φ₁) (w : FVec Ideal S128x128 φ₂) (p : Fin 5000) (j : Fin 128) :
    matmul dot_S5000x128_S128x128_S5000x128_1_0_0_1_n_n none l w (constant (F := Ideal) S5000x128 .f32 0x00000000#32) (ix2 p j)
      = ∑ k : Fin 128, l (ix2 p k) * w (ix2 k j) := by
  simp only [matmul]
  rw [Ideal.matmul_constant_zero_apply, ← Equiv.sum_comp (contrEquiv1 _ 128 rfl rfl).symm]
  refine Finset.sum_congr rfl fun k _ => ?_
  congr 2 <;> funext a <;> apply Fin.ext <;> match a with
  | ⟨0, _⟩ => rfl
  | ⟨1, _⟩ => rfl

-- A row plus the column sums of a block over its 5000 rows.
theorem addcol_apply (v : FVec Ideal S1x128 .f32) (x : FVec Ideal S5000x128 .f32) (j : Fin 128) :
    addf v (shapeCast S1x128 (multiReduction .add [0] S128 x 0x00000000#32 reduces_S5000x128_S128 (.inl rfl) rfl)
      shapeCasts_S128_S1x128) (ix2 0 j) = v (ix2 0 j) + ∑ r : Fin 5000, x (ix2 r j) := by
  rw [addf_apply, shapeCast_a_1a_apply]
  exact congrArg _ ((Ideal.multiReduction_add_single x _ _ _ _ _).trans
    (Finset.sum_congr rfl fun r _ => congrArg x (funext fun a => match a with | ⟨0, _⟩ => rfl | ⟨1, _⟩ => rfl)))

variable (v3 v6 : Vec Ideal S5000x128 .f32) (v8 v11 : Vec Ideal S128x128 .f32) (v17 s : Vec Ideal S1x128 .f32) (j : Fin 128)

theorem k1_pay4_apply (r : Fin 5000) :
    k1_pay4 v3 v6 v8 v11 v17 (ix2 r j)
      = ((∑ k : Fin 128, v3 (ix2 r k) * v8 (ix2 k j)) + (∑ k : Fin 128, v6 (ix2 r k) * v11 (ix2 k j))) + v17 (ix2 0 j) := by
  unfold k1_pay4
  simp only [shapeCast_self]
  rw [addf_apply, addf_apply, mm_apply, mm_apply, broadcastTo_1b_ab_apply]
  rfl

theorem k1_pay5_apply :
    k1_pay5 v3 v6 v8 v11 v17 s (ix2 0 j) = s (ix2 0 j) + ∑ r : Fin 5000, k1_pay4 v3 v6 v8 v11 v17 (ix2 r j) := by
  unfold k1_pay5
  simp only [shapeCast_self]
  exact addcol_apply _ _ j

theorem k1_pay1_apply :
    k1_pay1 s (k1_pay6 v3 v6 v8 v11 v17) (ix2 0 j)
      = s (ix2 0 j) + ∑ r : Fin 5000, k1_pay4 v3 v6 v8 v11 v17 (ix2 r j) * k1_pay4 v3 v6 v8 v11 v17 (ix2 r j) := by
  unfold k1_pay1 k1_pay6
  simp only [shapeCast_self]
  exact addcol_apply _ _ j

theorem k1_pay2_apply : k1_pay2 (F := Ideal) (ix2 0 j) = 0 ∧ k1_pay3 (F := Ideal) (ix2 0 j) = 0 := by
  unfold k1_pay2 k1_pay3
  simp only [shapeCast_self]
  exact ⟨Ideal.ofBits_zero_f32, Ideal.ofBits_zero_f32⟩

end Cert.KernelIdeal.Val

end
-- ==== Proof.Spec.lean ====
import Idealize.ShloMosaic.PureOps.Ideal
import Idealize.ShloMosaic.Lib.ValueIdx

noncomputable section

open scoped BigOperators

namespace Cert.Spec

open Idealize.ShloMosaic

structure Inp where
  x   : Fin 50000 → Fin 128 → EReal
  n0  : Fin 640000 → Fin 50000
  n1  : Fin 640000 → Fin 50000
  ea  : Fin 640000 → Fin 128 → EReal
  Wl  : Fin 128 → Fin 128 → EReal
  bl  : Fin 128 → EReal
  W1  : Fin 128 → Fin 256 → EReal
  b1  : Fin 128 → EReal
  g1  : Fin 128 → EReal
  be1 : Fin 128 → EReal
  W2  : Fin 128 → Fin 128 → EReal
  b2  : Fin 128 → EReal
  g2  : Fin 128 → EReal
  be2 : Fin 128 → EReal

def IsR (x : EReal) : Prop := ∃ r : ℝ, x = (r : EReal)

structure Inp.Finite (I : Inp) : Prop where
  x   : ∀ i k, IsR (I.x i k)
  ea  : ∀ e k, IsR (I.ea e k)
  Wl  : ∀ j k, IsR (I.Wl j k)
  bl  : ∀ j, IsR (I.bl j)
  W1  : ∀ j k, IsR (I.W1 j k)
  b1  : ∀ j, IsR (I.b1 j)
  g1  : ∀ j, IsR (I.g1 j)
  be1 : ∀ j, IsR (I.be1 j)
  W2  : ∀ j k, IsR (I.W2 j k)
  b2  : ∀ j, IsR (I.b2 j)
  g2  : ∀ j, IsR (I.g2 j)
  be2 : ∀ j, IsR (I.be2 j)

variable (I : Inp)

def cnt : EReal := Ideal.ofBits .f32 0x491C4000#32
def eps : EReal := Ideal.ofBits .f32 0x3727C5AC#32

def colsum (u : Fin 640000 → Fin 128 → EReal) (j : Fin 128) : EReal := ∑ e : Fin 640000, u e j
def colsumsq (u : Fin 640000 → Fin 128 → EReal) (j : Fin 128) : EReal := ∑ e : Fin 640000, u e j * u e j

def row (t : Fin 128) (r : Fin 5000) : Fin 640000 := ⟨5000 * t.val + r.val, by have := t.isLt; have := r.isLt; omega⟩

def psum (f : Fin 640000 → EReal) : (n : ℕ) → n ≤ 128 → EReal
  | 0, _ => 0
  | n + 1, h => psum f n (Nat.le_of_succ_le h) + ∑ r : Fin 5000, f (row ⟨n, h⟩ r)

def h (i : Fin 50000) (j : Fin 128) : EReal := (∑ k : Fin 128, I.x i k * I.Wl j k) + I.bl j
def agg (e : Fin 640000) (j : Fin 128) : EReal := h I (I.n0 e) j + h I (I.n1 e) j
def u1K (e : Fin 640000) (j : Fin 128) : EReal :=
  ((∑ k : Fin 128, agg I e k * I.W1 j (Fin.castAdd 128 k)) + (∑ k : Fin 128, I.ea e k * I.W1 j (Fin.natAdd 128 k))) + I.b1 j

def meanK (s : Fin 128 → EReal) (j : Fin 128) : EReal := Ideal.div (s j) cnt
def varK (s q : Fin 128 → EReal) (j : Fin 128) : EReal := Ideal.div (q j) cnt - meanK s j * meanK s j
def scaleK (s q g : Fin 128 → EReal) (j : Fin 128) : EReal := g j * Ideal.rsqrt (varK s q j + eps)
def shiftK (s q g be : Fin 128 → EReal) (j : Fin 128) : EReal := be j - meanK s j * scaleK s q g j
def bnreluK (u : Fin 640000 → Fin 128 → EReal) (g be : Fin 128 → EReal) (e : Fin 640000) (j : Fin 128) : EReal :=
  max (u e j * scaleK (colsum u) (colsumsq u) g j + shiftK (colsum u) (colsumsq u) g be j) 0

def z1K : Fin 640000 → Fin 128 → EReal := bnreluK (u1K I) I.g1 I.be1
def u2K (e : Fin 640000) (j : Fin 128) : EReal := (∑ k : Fin 128, z1K I e k * I.W2 j k) + I.b2 j
def zK : Fin 640000 → Fin 128 → EReal := bnreluK (u2K I) I.g2 I.be2

def cat (e : Fin 640000) (k : Fin 256) : EReal :=
  if hk : k.val < 128 then agg I e ⟨k.val, hk⟩ else I.ea e ⟨k.val - 128, by have := k.isLt; omega⟩
def u1R (e : Fin 640000) (j : Fin 128) : EReal := (∑ k : Fin 256, cat I e k * I.W1 j k) + I.b1 j

def meanR (u : Fin 640000 → Fin 128 → EReal) (j : Fin 128) : EReal := Ideal.div (colsum u j) cnt
def varR (u : Fin 640000 → Fin 128 → EReal) (j : Fin 128) : EReal :=
  Ideal.div (∑ e : Fin 640000, (u e j - meanR u j) * (u e j - meanR u j)) cnt
def bnreluR (u : Fin 640000 → Fin 128 → EReal) (g be : Fin 128 → EReal) (e : Fin 640000) (j : Fin 128) : EReal :=
  max (((u e j - meanR u j) * Ideal.rsqrt (varR u j + eps)) * g j + be j) 0

def z1R : Fin 640000 → Fin 128 → EReal := bnreluR (u1R I) I.g1 I.be1
def u2R (e : Fin 640000) (j : Fin 128) : EReal := (∑ k : Fin 128, z1R I e k * I.W2 j k) + I.b2 j
def zR : Fin 640000 → Fin 128 → EReal := bnreluR (u2R I) I.g2 I.be2

end Cert.Spec

end
-- ==== Proof.SpecLaws.lean ====
import proofs.«426623_j69028714381392_1_alg».proof.Proof.Spec

noncomputable section

open scoped BigOperators

namespace Cert.Spec

open Idealize.ShloMosaic

theorem cnt_eq : cnt = ((640000 : ℝ) : EReal) := by
  simp [cnt, Ideal.ofBits, Ideal.ieee, -EReal.coe_mul]; norm_num

theorem eps_pos : ∃ r : ℝ, 0 < r ∧ eps = (r : EReal) := by
  refine ⟨((2 ^ 23 + 0x27C5AC : ℕ) : ℝ) * (2 : ℝ) ^ (-40 : ℤ), by positivity, ?_⟩
  simp [eps, Ideal.ofBits, Ideal.ieee, -EReal.coe_mul]

def ext0 (f : Fin 640000 → EReal) (i : ℕ) : EReal := if hi : i < 640000 then f ⟨i, hi⟩ else 0

theorem psum_range (f : Fin 640000 → EReal) :
    ∀ (n : ℕ) (h : n ≤ 128), psum f n h = ∑ i ∈ Finset.range (5000 * n), ext0 f i
  | 0, _ => by simp [psum]
  | n + 1, h => by
    rw [psum, psum_range f n (Nat.le_of_succ_le h), Nat.mul_succ, Finset.sum_range_add]
    congr 1
    rw [← Fin.sum_univ_eq_sum_range (fun x => ext0 f (5000 * n + x)) 5000]
    refine Finset.sum_congr rfl (fun r _ => ?_)
    have hr : 5000 * n + r.val < 640000 := by have := r.isLt; omega
    simp [ext0, row, hr]

theorem psum_full (f : Fin 640000 → EReal) : psum f 128 le_rfl = ∑ e : Fin 640000, f e := by
  rw [psum_range, show 5000 * 128 = 640000 from rfl, ← Fin.sum_univ_eq_sum_range (ext0 f) 640000]
  refine Finset.sum_congr rfl (fun e _ => ?_)
  simp [ext0]

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {ι : Type} (s : Finset ι) (f : ι → EReal) (h : ∀ i ∈ s, IsR (f i)) : IsR (∑ i ∈ s, f i) :=
  Finset.sum_induction f IsR (fun _ _ => IsR.add) ⟨0, rfl⟩ h

theorem coe_sum {ι : Type} (s : Finset ι) (a : ι → ℝ) : (∑ i ∈ s, (a i : EReal)) = ((∑ i ∈ s, a i : ℝ) : EReal) :=
  (map_sum (⟨⟨Real.toEReal, EReal.coe_zero⟩, EReal.coe_add⟩ : ℝ →+ EReal) a s).symm

theorem var_id {ι : Type} [Fintype ι] (a : ι → ℝ) (n μ : ℝ) (hc : (Fintype.card ι : ℝ) = n) (hn : n ≠ 0)
    (hμ : μ = (∑ i, a i) / n) :
    (∑ i, a i * a i) / n - μ * μ = (∑ i, (a i - μ) * (a i - μ)) / n := by
  have hS : ∑ i, a i = n * μ := by rw [hμ]; field_simp
  simp only [sub_mul, mul_sub, Finset.sum_sub_distrib, ← Finset.sum_mul, ← Finset.mul_sum, Finset.sum_const, Finset.card_univ,
    nsmul_eq_mul, hc, hS]
  field_simp
  ring

-- mean of squares minus squared mean is the mean squared deviation, so var ≥ 0, var + ε > 0, and the rest is algebra in ℝ
theorem bnrelu_agree (u : Fin 640000 → Fin 128 → EReal) (g be : Fin 128 → EReal)
    (hu : ∀ e j, IsR (u e j)) (hg : ∀ j, IsR (g j)) (hbe : ∀ j, IsR (be j)) :
    bnreluK u g be = bnreluR u g be ∧ ∀ e j, IsR (bnreluR u g be e j) := by
  choose U hU using hu
  choose G hG using hg
  choose B hB using hbe
  obtain rfl : u = fun e j => (U e j : EReal) := funext₂ hU
  obtain rfl : g = fun j => (G j : EReal) := funext hG
  obtain rfl : be = fun j => (B j : EReal) := funext hB
  obtain ⟨ε, hε, heps⟩ := eps_pos
  have hdiv : ∀ x : ℝ, Ideal.div (x : EReal) cnt = ((x / 640000 : ℝ) : EReal) := fun x => by
    rw [cnt_eq, Ideal.div_coe (by norm_num), ← EReal.coe_mul, mul_one_div]
  suffices key : ∀ e j, bnreluK (fun e j => (U e j : EReal)) (fun j => (G j : EReal)) (fun j => (B j : EReal)) e j
      = bnreluR (fun e j => (U e j : EReal)) (fun j => (G j : EReal)) (fun j => (B j : EReal)) e j
      ∧ IsR (bnreluR (fun e j => (U e j : EReal)) (fun j => (G j : EReal)) (fun j => (B j : EReal)) e j) from
    ⟨funext₂ fun e j => (key e j).1, fun e j => (key e j).2⟩
  intro e j
  simp only [bnreluK, bnreluR, scaleK, shiftK, varK, meanK, meanR, varR, colsum, colsumsq, heps, ← EReal.coe_mul, coe_sum,
    hdiv, ← EReal.coe_sub, ← EReal.coe_add]
  rw [var_id (fun i => U i j) 640000 _ (by simp) (by norm_num) rfl]
  have hV : 0 < (∑ i, (U i j - (∑ i, U i j) / 640000) * (U i j - (∑ i, U i j) / 640000)) / 640000 + ε :=
    add_pos_of_nonneg_of_pos (div_nonneg (Finset.sum_nonneg fun i _ => mul_self_nonneg _) (by norm_num)) hε
  rw [Ideal.rsqrt_coe, if_neg (not_lt.mpr hV.le), if_neg hV.ne']
  simp only [← EReal.coe_mul, ← EReal.coe_sub, ← EReal.coe_add]
  exact ⟨congrArg (max · 0) (congrArg _ (by ring)), _, EReal.coe_strictMono.monotone.map_max.symm⟩

theorem u1K_eq_u1R (I : Inp) : u1K I = u1R I := by
  funext e j
  refine congrArg (· + I.b1 j) ((Fin.sum_univ_add fun k : Fin (128 + 128) => cat I e k * I.W1 j k).trans ?_).symm
  congr 1 <;> refine Finset.sum_congr rfl fun k _ => ?_ <;> simp [cat]

theorem u1R_real (I : Inp) (hI : I.Finite) (e : Fin 640000) (j : Fin 128) : IsR (u1R I e j) := by
  have hh : ∀ i j, IsR (h I i j) := fun i j => (IsR.sum _ _ fun k _ => (hI.x i k).mul (hI.Wl j k)).add (hI.bl j)
  refine (IsR.sum _ _ fun k _ => IsR.mul ?_ (hI.W1 j k)).add (hI.b1 j)
  unfold cat
  split
  · exact (hh _ _).add (hh _ _)
  · exact hI.ea e _

theorem zK_eq_zR (I : Inp) (hI : I.Finite) : zK I = zR I := by
  obtain ⟨e1, r1⟩ := bnrelu_agree (u1R I) I.g1 I.be1 (u1R_real I hI) hI.g1 hI.be1
  have hz1 : z1K I = z1R I := by unfold z1K z1R; rw [u1K_eq_u1R]; exact e1
  have h2 : u2K I = u2R I := by funext e j; unfold u2K u2R; rw [hz1]
  have hu2 : ∀ e j, IsR (u2R I e j) := fun e j =>
    IsR.add (IsR.sum _ _ (fun k _ => IsR.mul (r1 e k) (hI.W2 j k))) (hI.b2 j)
  unfold zK zR
  rw [h2]
  exact (bnrelu_agree (u2R I) I.g2 I.be2 hu2 hI.g2 hI.be2).1

end Cert.Spec

end
-- ==== Proof.KV.Reg1Val.lean ====
import proofs.«426623_j69028714381392_1_alg».proof.Proof.KI.Reg1
import proofs.«426623_j69028714381392_1_alg».proof.Proof.KV.Pay1
import proofs.«426623_j69028714381392_1_alg».proof.Proof.Spec
import proofs.«426623_j69028714381392_1_alg».proof.Proof.SpecLaws
import Idealize.ShloMosaic.Lib.Pipeline.Value

set_option maxRecDepth 16384

noncomputable section

open scoped BigOperators

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- One more block added to the partial sum over the first n blocks.
theorem psum_step (f : Fin 640000 → EReal) (n : ℕ) (h' : n + 1 ≤ 128) {x : EReal} {g : Fin 5000 → EReal}
    (hx : x = psum f n (Nat.le_of_succ_le h')) (hg : ∀ r, g r = f (row ⟨n, h'⟩ r)) :
    x + ∑ r, g r = psum f (n + 1) h' := by
  rw [hx, Finset.sum_congr rfl fun r _ => hg r]
  rfl

theorem psum_last (f : Fin 640000 → EReal) (n : ℕ) (h' : n + 1 ≤ 128) (hn : n = 127) :
    psum f (n + 1) h' = ∑ e, f e := by
  subst hn
  exact psum_full f

variable (V : (c : Dev nD) → (b : Ref sig .tc) → Buf (Elt Ideal) ((c : Thread nD τ).loc b)) (c : Dev nD)

theorem k1_idx : ∀ t : Fin cfg1.N,
    (win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0)
    ∧ (∀ a, win1_2.index t a = 0) ∧ (∀ a, win1_3.index t a = 0) ∧ (∀ a, win1_4.index t a = 0) ∧ (∀ a, win1_6.index t a = 0) ∧ ∀ a, win1_7.index t a = 0 :=
  (by decide +kernel : ∀ t : Fin grid1.N, _)

def k1_pt (t : Fin cfg1.N) : Fin 128 := ⟨t.val, lt_of_lt_of_eq t.isLt N_1⟩

theorem k1_emb0 (t : Fin cfg1.N) (r : Fin 5000) (k : Fin 128) :
    ((cfg1.win 0).blk t).view.emb (ix2 r k) = ix2 (row (k1_pt t) r) k := by
  have := (k1_idx t).1
  funext a
  apply Fin.ext
  match a with
  | ⟨0, _⟩ => show win1_0.index t (0 : Fin 2) * 5000 + 1 * r.val = 5000 * t.val + r.val; omega
  | ⟨1, _⟩ => show win1_0.index t (1 : Fin 2) * 128 + 1 * k.val = k.val; omega

theorem k1_emb1 (t : Fin cfg1.N) (r : Fin 5000) (k : Fin 128) :
    ((cfg1.win 1).blk t).view.emb (ix2 r k) = ix2 (row (k1_pt t) r) k := by
  have := (k1_idx t).1
  funext a
  apply Fin.ext
  match a with
  | ⟨0, _⟩ => show win1_1.index t (0 : Fin 2) * 5000 + 1 * r.val = 5000 * t.val + r.val; omega
  | ⟨1, _⟩ => show win1_1.index t (1 : Fin 2) * 128 + 1 * k.val = k.val; omega

theorem k1_emb5 (t : Fin cfg1.N) (r : Fin 5000) (k : Fin 128) :
    ((cfg1.win 5).blk t).view.emb (ix2 r k) = ix2 (row (k1_pt t) r) k := by
  have := (k1_idx t).1
  funext a
  apply Fin.ext
  match a with
  | ⟨0, _⟩ => show win1_5.index t (0 : Fin 2) * 5000 + 1 * r.val = 5000 * t.val + r.val; omega
  | ⟨1, _⟩ => show win1_5.index t (1 : Fin 2) * 128 + 1 * k.val = k.val; omega

theorem k1_emb2 (t : Fin cfg1.N) (y : S128x128.Idx) : ((cfg1.win 2).blk t).view.emb y = y :=
  funext fun a => Fin.ext (win1_2.rect_emb_val_of_index_zero t a ((k1_idx t).2.1 a) y)

theorem k1_emb3 (t : Fin cfg1.N) (y : S128x128.Idx) : ((cfg1.win 3).blk t).view.emb y = y :=
  funext fun a => Fin.ext (win1_3.rect_emb_val_of_index_zero t a ((k1_idx t).2.2.1 a) y)

theorem k1_emb4 (t : Fin cfg1.N) (y : S1x128.Idx) : ((cfg1.win 4).blk t).view.emb y = y :=
  funext fun a => Fin.ext (win1_4.rect_emb_val_of_index_zero t a ((k1_idx t).2.2.2.1 a) y)

theorem k1_emb6 (t : Fin cfg1.N) (y : S1x128.Idx) : ((cfg1.win 6).blk t).view.emb y = y :=
  funext fun a => Fin.ext (win1_6.rect_emb_val_of_index_zero t a ((k1_idx t).2.2.2.2.1 a) y)

theorem k1_emb7 (t : Fin cfg1.N) (y : S1x128.Idx) : ((cfg1.win 7).blk t).view.emb y = y :=
  funext fun a => Fin.ext (win1_7.rect_emb_val_of_index_zero t a ((k1_idx t).2.2.2.2.2 a) y)

-- The first edge linear map, read off the five operand arrays.
def k1_u : Fin 640000 → Fin 128 → EReal :=
  let a : S640000x128.Idx → EReal := V c main_v9
  let ea : S640000x128.Idx → EReal := V c main_arg2
  let Wa : S128x128.Idx → EReal := V c main_v11
  let Wb : S128x128.Idx → EReal := V c main_v12
  let b : S1x128.Idx → EReal := V c main_v13
  fun e j => ((∑ k : Fin 128, a (ix2 e k) * Wa (ix2 k j)) + ∑ k : Fin 128, ea (ix2 e k) * Wb (ix2 k j)) + b (ix2 (0 : Fin 1) j)

theorem k1_blk (t : Fin cfg1.N) (r : Fin 5000) (j : Fin 128) :
    k1_pay4 (iblk1 V c 0 t) (iblk1 V c 1 t) (iblk1 V c 2 t) (iblk1 V c 3 t) (iblk1 V c 4 t) (ix2 r j)
      = k1_u V c (row (k1_pt t) r) j :=
  (k1_pay4_apply _ _ _ _ _ j r).trans <| congrArg₂ (· + ·) (congrArg₂ (· + ·)
    (Finset.sum_congr rfl fun k _ => congrArg₂ (· * ·) (congrArg (V c main_v9 : S640000x128.Idx → EReal) (k1_emb0 t r k))
      (congrArg (V c main_v11 : S128x128.Idx → EReal) (k1_emb2 t _)))
    (Finset.sum_congr rfl fun k _ => congrArg₂ (· * ·) (congrArg (V c main_arg2 : S640000x128.Idx → EReal) (k1_emb1 t r k))
      (congrArg (V c main_v12 : S128x128.Idx → EReal) (k1_emb3 t _))))
    (congrArg (V c main_v13 : S1x128.Idx → EReal) (k1_emb4 t _))

-- After point n the two running rows hold the column sums and sums of squares over the first n + 1 blocks.
theorem k1_acc (j : Fin 128) : ∀ (n : ℕ) (h : n < cfg1.N) (h' : n + 1 ≤ 128),
    (acc1 V c n h).1 (ix2 (0 : Fin 1) j) = psum (fun e => k1_u V c e j) (n + 1) h'
    ∧ (acc1 V c n h).2 (ix2 (0 : Fin 1) j) = psum (fun e => k1_u V c e j * k1_u V c e j) (n + 1) h'
  | 0, h, h' =>
    ⟨(k1_pay5_apply _ _ _ _ _ _ j).trans (psum_step _ 0 h' (k1_pay2_apply j).1 fun r => k1_blk V c ⟨0, h⟩ r j),
      (k1_pay1_apply _ _ _ _ _ _ j).trans (psum_step _ 0 h' (k1_pay2_apply j).2 fun r =>
        congrArg₂ (· * ·) (k1_blk V c ⟨0, h⟩ r j) (k1_blk V c ⟨0, h⟩ r j))⟩
  | n + 1, h, h' =>
    ⟨(k1_pay5_apply _ _ _ _ _ _ j).trans (psum_step _ (n + 1) h' (k1_acc j n _ _).1 fun r => k1_blk V c ⟨n + 1, h⟩ r j),
      (k1_pay1_apply _ _ _ _ _ _ j).trans (psum_step _ (n + 1) h' (k1_acc j n _ _).2 fun r =>
        congrArg₂ (· * ·) (k1_blk V c ⟨n + 1, h⟩ r j) (k1_blk V c ⟨n + 1, h⟩ r j))⟩

theorem k1_flushed5 (t : Fin cfg1.N) :
    (dat1 V c).flushed 5 t
      = ((cfg1.win 5).blk t).view.read (Elt Ideal) (fun i : S640000x128.Idx => k1_u V c (i 0) (i 1)) := by
  funext y
  obtain ⟨r, j, rfl⟩ : ∃ (r : Fin 5000) (j : Fin 128), y = ix2 r j := ⟨y 0, y 1, eq_ix2 y⟩
  exact (k1_blk V c t r j).trans (congrArg (fun i : S640000x128.Idx => k1_u V c (i 0) (i 1)) (k1_emb5 t r j)).symm

theorem k1_read6 (G : S1x128.Idx → EReal) (t : Fin cfg1.N) (y : ((cfg1.win 6).xblock (cfg1.grid.coords t)).Idx) :
    ((cfg1.win 6).blk t).view.read (Elt Ideal) G y = G (((cfg1.win 6).blk t).view.emb y) := rfl

theorem k1_flushed6 (t : Fin cfg1.N) (hf : (cfg1.win 6).flush t = true) :
    (dat1 V c).flushed 6 t
      = ((cfg1.win 6).blk t).view.read (Elt Ideal) (fun i : S1x128.Idx => colsum (k1_u V c) (i 1)) := by
  have hN := lt_of_lt_of_eq t.isLt N_1
  have ht : t.val = 127 := by have := (flush1_6 t).mp hf; omega
  funext y
  obtain ⟨z, j, rfl⟩ : ∃ (z : Fin 1) (j : Fin 128), y = ix2 z j := ⟨y 0, y 1, eq_ix2 y⟩
  obtain rfl : z = 0 := Subsingleton.elim _ _
  have hl : (dat1 V c).flushed 6 t (ix2 (0 : Fin 1) j) = (acc1 V c t.val t.isLt).1 (ix2 (0 : Fin 1) j) := rfl
  refine Eq.trans ?_ (k1_read6 _ t (ix2 (0 : Fin 1) j)).symm
  beta_reduce
  rw [hl, k1_emb6, (k1_acc V c j t.val t.isLt (by omega)).1]
  exact psum_last _ _ _ ht

theorem k1_read7 (G : S1x128.Idx → EReal) (t : Fin cfg1.N) (y : ((cfg1.win 7).xblock (cfg1.grid.coords t)).Idx) :
    ((cfg1.win 7).blk t).view.read (Elt Ideal) G y = G (((cfg1.win 7).blk t).view.emb y) := rfl

theorem k1_flushed7 (t : Fin cfg1.N) (hf : (cfg1.win 7).flush t = true) :
    (dat1 V c).flushed 7 t
      = ((cfg1.win 7).blk t).view.read (Elt Ideal) (fun i : S1x128.Idx => colsumsq (k1_u V c) (i 1)) := by
  have hN := lt_of_lt_of_eq t.isLt N_1
  have ht : t.val = 127 := by have := (flush1_7 t).mp hf; omega
  funext y
  obtain ⟨z, j, rfl⟩ : ∃ (z : Fin 1) (j : Fin 128), y = ix2 z j := ⟨y 0, y 1, eq_ix2 y⟩
  obtain rfl : z = 0 := Subsingleton.elim _ _
  have hl : (dat1 V c).flushed 7 t (ix2 (0 : Fin 1) j) = (acc1 V c t.val t.isLt).2 (ix2 (0 : Fin 1) j) := rfl
  refine Eq.trans ?_ (k1_read7 _ t (ix2 (0 : Fin 1) j)).symm
  beta_reduce
  rw [hl, k1_emb7, (k1_acc V c j t.val t.isLt (by omega)).2]
  exact psum_last _ _ _ ht

theorem k1_final5 (e : Fin 640000) (j : Fin 128) :
    ((dat1 V c).arrAt 5 cfg1.N : S640000x128.Idx → EReal) (ix2 e j) = k1_u V c e j := by
  have ht : e.val / 5000 < cfg1.N := lt_of_lt_of_eq (by omega) N_1.symm
  have := (dat1 V c).arrAt_apply_of_mem 5 _ (fun t _ => k1_flushed5 V c t) cfg1.N ⟨_, ht⟩ _ ht (flush1_5 _)
    (View.emb_mem_set _ (ix2 ⟨e.val % 5000, Nat.mod_lt _ (by decide)⟩ j))
  rwa [k1_emb5, show row (k1_pt ⟨e.val / 5000, ht⟩) ⟨e.val % 5000, Nat.mod_lt _ (by decide)⟩ = e from
    Fin.ext (Nat.div_add_mod e.val 5000)] at this

theorem k1_final6 (j : Fin 128) :
    ((dat1 V c).arrAt 6 cfg1.N : S1x128.Idx → EReal) (ix2 (0 : Fin 1) j) = colsum (k1_u V c) j := by
  have hl : 127 < cfg1.N := lt_of_lt_of_eq (by decide) N_1.symm
  have := (dat1 V c).arrAt_apply_of_mem 6 _ (k1_flushed6 V c) cfg1.N ⟨127, hl⟩ _ hl ((flush1_6 _).mpr rfl)
    (View.emb_mem_set _ (ix2 (0 : Fin 1) j))
  rwa [k1_emb6] at this

theorem k1_final7 (j : Fin 128) :
    ((dat1 V c).arrAt 7 cfg1.N : S1x128.Idx → EReal) (ix2 (0 : Fin 1) j) = colsumsq (k1_u V c) j := by
  have hl : 127 < cfg1.N := lt_of_lt_of_eq (by decide) N_1.symm
  have := (dat1 V c).arrAt_apply_of_mem 7 _ (k1_flushed7 V c) cfg1.N ⟨127, hl⟩ _ hl ((flush1_7 _).mpr rfl)
    (View.emb_mem_set _ (ix2 (0 : Fin 1) j))
  rwa [k1_emb7] at this

theorem reg1_val (c : Dev nD) (a ea : Fin 640000 → Fin 128 → EReal) (Wa Wb : Fin 128 → Fin 128 → EReal) (b : Fin 128 → EReal)
    (ha : ∀ e k, (V c main_v9 : S640000x128.Idx → EReal) (ix2 e k) = a e k)
    (hea : ∀ e k, (V c main_arg2 : S640000x128.Idx → EReal) (ix2 e k) = ea e k)
    (hWa : ∀ k j, (V c main_v11 : S128x128.Idx → EReal) (ix2 k j) = Wa k j)
    (hWb : ∀ k j, (V c main_v12 : S128x128.Idx → EReal) (ix2 k j) = Wb k j)
    (hb : ∀ j, (V c main_v13 : S1x128.Idx → EReal) (ix2 (0 : Fin 1) j) = b j) :
    let u : Fin 640000 → Fin 128 → EReal :=
      fun e j => ((∑ k : Fin 128, a e k * Wa k j) + (∑ k : Fin 128, ea e k * Wb k j)) + b j
    (∀ e j, ((dat1 V c).arrAt 5 cfg1.N : S640000x128.Idx → EReal) (ix2 e j) = u e j)
      ∧ (∀ j, ((dat1 V c).arrAt 6 cfg1.N : S1x128.Idx → EReal) (ix2 (0 : Fin 1) j) = Cert.Spec.colsum u j)
      ∧ (∀ j, ((dat1 V c).arrAt 7 cfg1.N : S1x128.Idx → EReal) (ix2 (0 : Fin 1) j) = Cert.Spec.colsumsq u j) := by
  obtain rfl := funext₂ ha
  obtain rfl := funext₂ hea
  obtain rfl := funext₂ hWa
  obtain rfl := funext₂ hWb
  obtain rfl := funext hb
  exact ⟨k1_final5 V c, k1_final6 V c, k1_final7 V c⟩

end Cert.KernelIdeal.Val

end
-- ==== Proof.KV.Pay2.lean ====
import proofs.«426623_j69028714381392_1_alg».proof.Proof.KV.Pay1

noncomputable section

open scoped BigOperators

namespace Cert.KernelIdeal.Val

open Cert.KernelIdeal Cert.KernelIdeal.Gen Idealize.ShloMosaic Idealize.ShloMosaic.ValueIdx

variable (v3 : Vec Ideal S5000x128 .f32) (v5 v9 v20 s : Vec Ideal S1x128 .f32) (v16 : Vec Ideal S128x128 .f32) (j : Fin 128)

theorem k2_pay4_apply (r : Fin 5000) :
    k2_pay4 v3 v5 v9 v16 v20 (ix2 r j)
      = (∑ k : Fin 128, max (v3 (ix2 r k) * v5 (ix2 0 k) + v9 (ix2 0 k)) 0 * v16 (ix2 k j)) + v20 (ix2 0 j) := by
  unfold k2_pay4
  simp only [shapeCast_self]
  rw [addf_apply, mm_apply, broadcastTo_1b_ab_apply]
  refine congrArg (· + _) (Finset.sum_congr rfl fun k _ => ?_)
  rw [truncf_apply, truncf_apply, maximumf_apply, addf_apply, mulf_apply, broadcastTo_1b_ab_apply,
    broadcastTo_1b_ab_apply, broadcast_apply]
  show max _ (Ideal.ofBits .f32 0x00000000#32) * _ = _
  rw [Ideal.ofBits_zero_f32]

theorem k2_pay5_apply :
    k2_pay5 v3 v5 v9 v16 v20 s (ix2 0 j) = s (ix2 0 j) + ∑ r : Fin 5000, k2_pay4 v3 v5 v9 v16 v20 (ix2 r j) := by
  unfold k2_pay5
  simp only [shapeCast_self]
  exact addcol_apply _ _ j

theorem k2_pay1_apply (x : FVec Ideal S5000x128 .f32) :
    k2_pay1 x s (ix2 0 j) = s (ix2 0 j) + ∑ r : Fin 5000, x (ix2 r j) * x (ix2 r j) := by
  unfold k2_pay1
  simp only [shapeCast_self]
  exact addcol_apply _ _ j

theorem k2_pay2_apply : k2_pay2 (F := Ideal) (ix2 0 j) = 0 ∧ k2_pay3 (F := Ideal) (ix2 0 j) = 0 := by
  unfold k2_pay2 k2_pay3
  simp only [shapeCast_self]
  exact ⟨Ideal.ofBits_zero_f32, Ideal.ofBits_zero_f32⟩

end Cert.KernelIdeal.Val

end
-- ==== Proof.KV.Reg2Val.lean ====
import proofs.«426623_j69028714381392_1_alg».proof.Proof.KI.Reg2
import proofs.«426623_j69028714381392_1_alg».proof.Proof.KV.Pay2
import proofs.«426623_j69028714381392_1_alg».proof.Proof.KV.Reg1Val

set_option maxRecDepth 16384

noncomputable section

open scoped BigOperators

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

theorem reg2_idx : ∀ t : Fin cfg2.N,
    (win2_0.index t (0 : Fin 2) = t.val ∧ win2_0.index t (1 : Fin 2) = 0
    ∧ win2_5.index t (0 : Fin 2) = t.val ∧ win2_5.index t (1 : Fin 2) = 0)
    ∧ (∀ a, win2_1.index t a = 0) ∧ (∀ a, win2_2.index t a = 0) ∧ (∀ a, win2_3.index t a = 0) ∧ (∀ a, win2_4.index t a = 0) ∧ (∀ a, win2_6.index t a = 0) ∧ ∀ a, win2_7.index t a = 0 :=
  (by decide +kernel : ∀ t : Fin grid2.N, _)

def reg2_pt (t : Fin cfg2.N) : Fin 128 := ⟨t.val, lt_of_lt_of_eq t.isLt N_2⟩

theorem reg2_emb0 (t : Fin cfg2.N) (r : Fin 5000) (k : Fin 128) :
    ((cfg2.win 0).blk t).view.emb (ix2 r k) = ix2 (row (reg2_pt t) r) k := by
  have := (reg2_idx t).1
  funext a
  apply Fin.ext
  match a with
  | ⟨0, _⟩ => show win2_0.index t (0 : Fin 2) * 5000 + 1 * r.val = 5000 * t.val + r.val; omega
  | ⟨1, _⟩ => show win2_0.index t (1 : Fin 2) * 128 + 1 * k.val = k.val; omega

theorem reg2_emb5 (t : Fin cfg2.N) (r : Fin 5000) (k : Fin 128) :
    ((cfg2.win 5).blk t).view.emb (ix2 r k) = ix2 (row (reg2_pt t) r) k := by
  have := (reg2_idx t).1
  funext a
  apply Fin.ext
  match a with
  | ⟨0, _⟩ => show win2_5.index t (0 : Fin 2) * 5000 + 1 * r.val = 5000 * t.val + r.val; omega
  | ⟨1, _⟩ => show win2_5.index t (1 : Fin 2) * 128 + 1 * k.val = k.val; omega

theorem reg2_emb1 (t : Fin cfg2.N) (y : S1x128.Idx) : ((cfg2.win 1).blk t).view.emb y = y :=
  funext fun a => Fin.ext (win2_1.rect_emb_val_of_index_zero t a ((reg2_idx t).2.1 a) y)

theorem reg2_emb2 (t : Fin cfg2.N) (y : S1x128.Idx) : ((cfg2.win 2).blk t).view.emb y = y :=
  funext fun a => Fin.ext (win2_2.rect_emb_val_of_index_zero t a ((reg2_idx t).2.2.1 a) y)

theorem reg2_emb3 (t : Fin cfg2.N) (y : S128x128.Idx) : ((cfg2.win 3).blk t).view.emb y = y :=
  funext fun a => Fin.ext (win2_3.rect_emb_val_of_index_zero t a ((reg2_idx t).2.2.2.1 a) y)

theorem reg2_emb4 (t : Fin cfg2.N) (y : S1x128.Idx) : ((cfg2.win 4).blk t).view.emb y = y :=
  funext fun a => Fin.ext (win2_4.rect_emb_val_of_index_zero t a ((reg2_idx t).2.2.2.2.1 a) y)

theorem reg2_emb6 (t : Fin cfg2.N) (y : S1x128.Idx) : ((cfg2.win 6).blk t).view.emb y = y :=
  funext fun a => Fin.ext (win2_6.rect_emb_val_of_index_zero t a ((reg2_idx t).2.2.2.2.2.1 a) y)

theorem reg2_emb7 (t : Fin cfg2.N) (y : S1x128.Idx) : ((cfg2.win 7).blk t).view.emb y = y :=
  funext fun a => Fin.ext (win2_7.rect_emb_val_of_index_zero t a ((reg2_idx t).2.2.2.2.2.2 a) y)

-- The region's new rows, read off the five operand arrays.
def reg2_u : Fin 640000 → Fin 128 → EReal :=
  let u1 : S640000x128.Idx → EReal := V c main_v14_0
  let sc : S1x128.Idx → EReal := V c main_v25
  let sh : S1x128.Idx → EReal := V c main_v28
  let Wt : S128x128.Idx → EReal := V c main_v29
  let b : S1x128.Idx → EReal := V c main_v30
  fun e j => (∑ k : Fin 128, max (u1 (ix2 e k) * sc (ix2 (0 : Fin 1) k) + sh (ix2 (0 : Fin 1) k)) 0 * Wt (ix2 k j))
    + b (ix2 (0 : Fin 1) j)

theorem reg2_blk (t : Fin cfg2.N) (r : Fin 5000) (j : Fin 128) :
    k2_pay4 (iblk2 V c 0 t) (iblk2 V c 1 t) (iblk2 V c 2 t) (iblk2 V c 3 t) (iblk2 V c 4 t) (ix2 r j)
      = reg2_u V c (row (reg2_pt t) r) j :=
  (k2_pay4_apply _ _ _ _ _ j r).trans <| congrArg₂ (· + ·)
    (Finset.sum_congr rfl fun k _ => congrArg₂ (· * ·) (congrArg (max · 0) (congrArg₂ (· + ·) (congrArg₂ (· * ·)
      (congrArg (V c main_v14_0 : S640000x128.Idx → EReal) (reg2_emb0 t r k))
      (congrArg (V c main_v25 : S1x128.Idx → EReal) (reg2_emb1 t _)))
      (congrArg (V c main_v28 : S1x128.Idx → EReal) (reg2_emb2 t _))))
      (congrArg (V c main_v29 : S128x128.Idx → EReal) (reg2_emb3 t _)))
    (congrArg (V c main_v30 : S1x128.Idx → EReal) (reg2_emb4 t _))

-- After point n the two running rows hold the column sums and sums of squares over the first n + 1 blocks.
theorem reg2_acc (j : Fin 128) : ∀ (n : ℕ) (h : n < cfg2.N) (h' : n + 1 ≤ 128),
    (acc2 V c n h).1 (ix2 (0 : Fin 1) j) = psum (fun e => reg2_u V c e j) (n + 1) h'
    ∧ (acc2 V c n h).2 (ix2 (0 : Fin 1) j) = psum (fun e => reg2_u V c e j * reg2_u V c e j) (n + 1) h'
  | 0, h, h' =>
    ⟨(k2_pay5_apply _ _ _ _ _ _ j).trans (psum_step _ 0 h' (k2_pay2_apply j).1 fun r => reg2_blk V c ⟨0, h⟩ r j),
      (k2_pay1_apply _ j _).trans (psum_step _ 0 h' (k2_pay2_apply j).2 fun r =>
        congrArg₂ (· * ·) (reg2_blk V c ⟨0, h⟩ r j) (reg2_blk V c ⟨0, h⟩ r j))⟩
  | n + 1, h, h' =>
    ⟨(k2_pay5_apply _ _ _ _ _ _ j).trans (psum_step _ (n + 1) h' (reg2_acc j n _ _).1 fun r => reg2_blk V c ⟨n + 1, h⟩ r j),
      (k2_pay1_apply _ j _).trans (psum_step _ (n + 1) h' (reg2_acc j n _ _).2 fun r =>
        congrArg₂ (· * ·) (reg2_blk V c ⟨n + 1, h⟩ r j) (reg2_blk V c ⟨n + 1, h⟩ r j))⟩

theorem reg2_flushed5 (t : Fin cfg2.N) :
    (dat2 V c).flushed 5 t
      = ((cfg2.win 5).blk t).view.read (Elt Ideal) (fun i : S640000x128.Idx => reg2_u V c (i 0) (i 1)) := by
  funext y
  obtain ⟨r, j, rfl⟩ : ∃ (r : Fin 5000) (j : Fin 128), y = ix2 r j := ⟨y 0, y 1, eq_ix2 y⟩
  exact (reg2_blk V c t r j).trans (congrArg (fun i : S640000x128.Idx => reg2_u V c (i 0) (i 1)) (reg2_emb5 t r j)).symm

theorem reg2_read6 (G : S1x128.Idx → EReal) (t : Fin cfg2.N) (y : ((cfg2.win 6).xblock (cfg2.grid.coords t)).Idx) :
    ((cfg2.win 6).blk t).view.read (Elt Ideal) G y = G (((cfg2.win 6).blk t).view.emb y) := rfl

theorem reg2_flushed6 (t : Fin cfg2.N) (hf : (cfg2.win 6).flush t = true) :
    (dat2 V c).flushed 6 t
      = ((cfg2.win 6).blk t).view.read (Elt Ideal) (fun i : S1x128.Idx => colsum (reg2_u V c) (i 1)) := by
  have hN := lt_of_lt_of_eq t.isLt N_2
  have ht : t.val = 127 := by have := (flush2_6 t).mp hf; omega
  funext y
  obtain ⟨z, j, rfl⟩ : ∃ (z : Fin 1) (j : Fin 128), y = ix2 z j := ⟨y 0, y 1, eq_ix2 y⟩
  obtain rfl : z = 0 := Subsingleton.elim _ _
  have hl : (dat2 V c).flushed 6 t (ix2 (0 : Fin 1) j) = (acc2 V c t.val t.isLt).1 (ix2 (0 : Fin 1) j) := rfl
  refine Eq.trans ?_ (reg2_read6 _ t (ix2 (0 : Fin 1) j)).symm
  beta_reduce
  rw [hl, reg2_emb6, (reg2_acc V c j t.val t.isLt (by omega)).1]
  exact psum_last _ _ _ ht

theorem reg2_read7 (G : S1x128.Idx → EReal) (t : Fin cfg2.N) (y : ((cfg2.win 7).xblock (cfg2.grid.coords t)).Idx) :
    ((cfg2.win 7).blk t).view.read (Elt Ideal) G y = G (((cfg2.win 7).blk t).view.emb y) := rfl

theorem reg2_flushed7 (t : Fin cfg2.N) (hf : (cfg2.win 7).flush t = true) :
    (dat2 V c).flushed 7 t
      = ((cfg2.win 7).blk t).view.read (Elt Ideal) (fun i : S1x128.Idx => colsumsq (reg2_u V c) (i 1)) := by
  have hN := lt_of_lt_of_eq t.isLt N_2
  have ht : t.val = 127 := by have := (flush2_7 t).mp hf; omega
  funext y
  obtain ⟨z, j, rfl⟩ : ∃ (z : Fin 1) (j : Fin 128), y = ix2 z j := ⟨y 0, y 1, eq_ix2 y⟩
  obtain rfl : z = 0 := Subsingleton.elim _ _
  have hl : (dat2 V c).flushed 7 t (ix2 (0 : Fin 1) j) = (acc2 V c t.val t.isLt).2 (ix2 (0 : Fin 1) j) := rfl
  refine Eq.trans ?_ (reg2_read7 _ t (ix2 (0 : Fin 1) j)).symm
  beta_reduce
  rw [hl, reg2_emb7, (reg2_acc V c j t.val t.isLt (by omega)).2]
  exact psum_last _ _ _ ht

theorem reg2_final5 (e : Fin 640000) (j : Fin 128) :
    ((dat2 V c).arrAt 5 cfg2.N : S640000x128.Idx → EReal) (ix2 e j) = reg2_u V c e j := by
  have ht : e.val / 5000 < cfg2.N := lt_of_lt_of_eq (by omega) N_2.symm
  have := (dat2 V c).arrAt_apply_of_mem 5 _ (fun t _ => reg2_flushed5 V c t) cfg2.N ⟨_, ht⟩ _ ht (flush2_5 _)
    (View.emb_mem_set _ (ix2 ⟨e.val % 5000, Nat.mod_lt _ (by decide)⟩ j))
  rwa [reg2_emb5, show row (reg2_pt ⟨e.val / 5000, ht⟩) ⟨e.val % 5000, Nat.mod_lt _ (by decide)⟩ = e from
    Fin.ext (Nat.div_add_mod e.val 5000)] at this

theorem reg2_final6 (j : Fin 128) :
    ((dat2 V c).arrAt 6 cfg2.N : S1x128.Idx → EReal) (ix2 (0 : Fin 1) j) = colsum (reg2_u V c) j := by
  have hl : 127 < cfg2.N := lt_of_lt_of_eq (by decide) N_2.symm
  have := (dat2 V c).arrAt_apply_of_mem 6 _ (reg2_flushed6 V c) cfg2.N ⟨127, hl⟩ _ hl ((flush2_6 _).mpr rfl)
    (View.emb_mem_set _ (ix2 (0 : Fin 1) j))
  rwa [reg2_emb6] at this

theorem reg2_final7 (j : Fin 128) :
    ((dat2 V c).arrAt 7 cfg2.N : S1x128.Idx → EReal) (ix2 (0 : Fin 1) j) = colsumsq (reg2_u V c) j := by
  have hl : 127 < cfg2.N := lt_of_lt_of_eq (by decide) N_2.symm
  have := (dat2 V c).arrAt_apply_of_mem 7 _ (reg2_flushed7 V c) cfg2.N ⟨127, hl⟩ _ hl ((flush2_7 _).mpr rfl)
    (View.emb_mem_set _ (ix2 (0 : Fin 1) j))
  rwa [reg2_emb7] at this

theorem reg2_val (V : (c : Dev nD) → (b : Ref sig .tc) → Buf (Elt Ideal) ((c : Thread nD τ).loc b)) (c : Dev nD)
    (u1 : Fin 640000 → Fin 128 → EReal) (sc sh : Fin 128 → EReal) (Wt : Fin 128 → Fin 128 → EReal) (b : Fin 128 → EReal)
    (hu : ∀ e k, (V c main_v14_0 : S640000x128.Idx → EReal) (ix2 e k) = u1 e k)
    (hsc : ∀ k, (V c main_v25 : S1x128.Idx → EReal) (ix2 (0 : Fin 1) k) = sc k)
    (hsh : ∀ k, (V c main_v28 : S1x128.Idx → EReal) (ix2 (0 : Fin 1) k) = sh k)
    (hW : ∀ k j, (V c main_v29 : S128x128.Idx → EReal) (ix2 k j) = Wt k j)
    (hb : ∀ j, (V c main_v30 : S1x128.Idx → EReal) (ix2 (0 : Fin 1) j) = b j) :
    let u : Fin 640000 → Fin 128 → EReal := fun e j => (∑ k : Fin 128, max (u1 e k * sc k + sh k) 0 * Wt k j) + b j
    (∀ e j, ((dat2 V c).arrAt 5 cfg2.N : S640000x128.Idx → EReal) (ix2 e j) = u e j)
    ∧ (∀ j, ((dat2 V c).arrAt 6 cfg2.N : S1x128.Idx → EReal) (ix2 (0 : Fin 1) j) = Cert.Spec.colsum u j)
    ∧ (∀ j, ((dat2 V c).arrAt 7 cfg2.N : S1x128.Idx → EReal) (ix2 (0 : Fin 1) j) = Cert.Spec.colsumsq u j) := by
  obtain rfl := funext₂ hu
  obtain rfl := funext hsc
  obtain rfl := funext hsh
  obtain rfl := funext₂ hW
  obtain rfl := funext hb
  exact ⟨reg2_final5 V c, reg2_final6 V c, reg2_final7 V c⟩

end Cert.KernelIdeal.Val

end
-- ==== Proof.KV.Reg3Val.lean ====
import proofs.«426623_j69028714381392_1_alg».proof.Proof.KI.Reg3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

theorem k3_pay1_apply (x0 : Vec Ideal S10000x128 .f32) (x1 x2 : Vec Ideal S1x128 .f32) (p : Fin 10000) (q : Fin 128) :
    k3_pay1 x0 x1 x2 (ix2 p q) = max (x0 (ix2 p q) * x1 (ix2 (0 : Fin 1) q) + x2 (ix2 (0 : Fin 1) q)) (0 : EReal) := by
  unfold k3_pay1
  rw [maximumf_apply, addf_apply, mulf_apply, broadcast_apply, shapeCast_self, shapeCast_self, shapeCast_self,
    broadcastTo_1b_ab_apply, broadcastTo_1b_ab_apply]
  exact congrArg _ Ideal.ofBits_zero_f32

theorem index_maps3 : ∀ t : Fin cfg3.N, win3_0.index t (0 : Fin 2) = t.val ∧ win3_0.index t (1 : Fin 2) = 0
    ∧ win3_1.index t (1 : Fin 2) = 0 ∧ win3_2.index t (1 : Fin 2) = 0
    ∧ win3_3.index t (0 : Fin 2) = t.val ∧ win3_3.index t (1 : Fin 2) = 0 :=
  (by decide +kernel : ∀ t : Fin grid3.N, _)

-- Row r of the result lies in block r / 10000.
theorem cover3 (i : S640000x128.Idx) : ∃ t : Fin cfg3.N, (cfg3.win 3).flush t = true ∧ i ∈ ((cfg3.win 3).blk t).view.set := by
  have hi0 := idx2_lt0 i
  have hi1 := idx2_lt1 i
  have hN : cfg3.N = 64 := N_3
  obtain ⟨t, ht⟩ : ∃ t : Fin cfg3.N, t.val = (i 0).val / 10000 := ⟨⟨_, by omega⟩, rfl⟩
  obtain ⟨-, -, -, -, e30, e31⟩ := index_maps3 t
  refine ⟨t, flush3_3 _, ?_⟩
  show i ∈ ((View.whole main_v46).slice (win3_3.rect t)).set
  rw [View.set_slice_whole, Rect.mem_set_unit]
  intro a
  match a with
  | ⟨0, _⟩ =>
    show win3_3.index t (0 : Fin 2) * 10000 ≤ (i 0).val ∧ (i 0).val < win3_3.index t (0 : Fin 2) * 10000 + 10000
    omega
  | ⟨1, _⟩ =>
    show win3_3.index t (1 : Fin 2) * 128 ≤ (i 1).val ∧ (i 1).val < win3_3.index t (1 : Fin 2) * 128 + 128
    omega

variable (V : (c : Dev nD) → (b : Ref sig .tc) → Buf (Elt Ideal) ((c : Thread nD τ).loc b))

theorem reg3_val (c : Dev nD) (u : Fin 640000 → Fin 128 → EReal) (sc sh : Fin 128 → EReal)
    (hu : ∀ e j, (V c main_v31_0 : S640000x128.Idx → EReal) (ix2 e j) = u e j)
    (hsc : ∀ j, (V c main_v42 : S1x128.Idx → EReal) (ix2 (0 : Fin 1) j) = sc j)
    (hsh : ∀ j, (V c main_v45 : S1x128.Idx → EReal) (ix2 (0 : Fin 1) j) = sh j) :
    ∀ (e : Fin 640000) (j : Fin 128), ((dat3 V c).arrAt 3 cfg3.N : S640000x128.Idx → EReal) (ix2 e j) = max (u e j * sc j + sh j) 0 := by
  refine fun e j => congrFun ((dat3 V c).arrAt_eq_of_cover 3
    (fun i => max (u (i 0) (i 1) * sc (i 1) + sh (i 1)) 0 : S640000x128.Idx → EReal) (fun t _ => ?_) cover3) (ix2 e j)
  show (cfg3.win 3).cut (grid3.coords t) ((dat3 V c).after 3 t) = _
  rw [after3_3]
  funext y
  obtain ⟨p, q, rfl⟩ : ∃ (p : Fin 10000) (q : Fin 128), y = ix2 p q := ⟨y 0, y 1, eq_ix2 y⟩
  obtain ⟨e00, e01, e11, e21, e30, e31⟩ := index_maps3 t
  let E : S640000x128.Idx := ((cfg3.win 3).blk t).view.emb (ix2 p q)
  have h0 : iblk3 V c 0 t (ix2 p q) = u (E 0) (E 1) := (congrArg (V c main_v31_0) (Shape.idx_ext₂
    (by show win3_0.index t (0 : Fin 2) * 10000 + 1 * p.val = win3_3.index t (0 : Fin 2) * 10000 + 1 * p.val; omega)
    (by show win3_0.index t (1 : Fin 2) * 128 + 1 * q.val = win3_3.index t (1 : Fin 2) * 128 + 1 * q.val; omega))).trans (hu _ _)
  have h1 : iblk3 V c 1 t (ix2 (0 : Fin 1) q) = sc (E 1) := (congrArg (V c main_v42) (Shape.idx_ext₂
    (Nat.lt_one_iff.mp (Fin.isLt _))
    (by show win3_1.index t (1 : Fin 2) * 128 + 1 * q.val = win3_3.index t (1 : Fin 2) * 128 + 1 * q.val; omega))).trans (hsc _)
  have h2 : iblk3 V c 2 t (ix2 (0 : Fin 1) q) = sh (E 1) := (congrArg (V c main_v45) (Shape.idx_ext₂
    (Nat.lt_one_iff.mp (Fin.isLt _))
    (by show win3_2.index t (1 : Fin 2) * 128 + 1 * q.val = win3_3.index t (1 : Fin 2) * 128 + 1 * q.val; omega))).trans (hsh _)
  show k3_pay1 (iblk3 V c 0 t) (iblk3 V c 1 t) (iblk3 V c 2 t) (ix2 p q) = _
  rw [k3_pay1_apply, h0, h1, h2]
  rfl

end Cert.KernelIdeal.Val
end
-- ==== Proof.SpecInp.lean ====
import proofs.«426623_j69028714381392_1_alg».proof.Proof.Spec

noncomputable section

namespace Cert.Spec

open Idealize.ShloMosaic Idealize.ShloMosaic.ValueIdx

def node (w : BitVec 32) : Fin 50000 := ⟨w.toNat % 50000, Nat.mod_lt _ (by decide)⟩

def inpOf (a0 : FVec Ideal (⟨2, ![50000, 128]⟩ : Shape) .f32) (a1 : IVec (⟨2, ![2, 640000]⟩ : Shape) 32)
    (a2 : FVec Ideal (⟨2, ![640000, 128]⟩ : Shape) .f32) (a3 : FVec Ideal (⟨2, ![128, 128]⟩ : Shape) .f32)
    (a4 : FVec Ideal (⟨1, ![128]⟩ : Shape) .f32) (a5 : FVec Ideal (⟨2, ![128, 256]⟩ : Shape) .f32)
    (a6 a7 a8 : FVec Ideal (⟨1, ![128]⟩ : Shape) .f32) (a9 : FVec Ideal (⟨2, ![128, 128]⟩ : Shape) .f32)
    (a10 a11 a12 : FVec Ideal (⟨1, ![128]⟩ : Shape) .f32) : Inp where
  x   := fun i k => a0 (ix2 i k)
  n0  := fun e => node (a1 (ix2 (0 : Fin 2) e))
  n1  := fun e => node (a1 (ix2 (1 : Fin 2) e))
  ea  := fun e k => a2 (ix2 e k)
  Wl  := fun j k => a3 (ix2 j k)
  bl  := fun j => a4 (ix1 j)
  W1  := fun j k => a5 (ix2 j k)
  b1  := fun j => a6 (ix1 j)
  g1  := fun j => a7 (ix1 j)
  be1 := fun j => a8 (ix1 j)
  W2  := fun j k => a9 (ix2 j k)
  b2  := fun j => a10 (ix1 j)
  g2  := fun j => a11 (ix1 j)
  be2 := fun j => a12 (ix1 j)

end Cert.Spec

end
-- ==== Proof.KV.Host0.lean ====
import proofs.«426623_j69028714381392_1_alg».proof.Proof.Gen.KernelIdeal.Launch
import proofs.«426623_j69028714381392_1_alg».proof.Proof.SpecInp
import Idealize.ShloMosaic.Lib.StableHlo.Run
import Idealize.ShloMosaic.Lib.ValueIdx
import Idealize.ShloMosaic.Lib.ValueLayout

noncomputable section

namespace Cert.KernelIdeal.HostVal

open Cert.KernelIdeal Cert.KernelIdeal.Gen Idealize.ShloMosaic Idealize.ShloMosaic.ValueIdx Idealize.ShloMosaic.TcCoe

variable (W : Valuation τ sig (Elt Ideal))

theorem host0_v0 (k j : Fin 128) :
    (StableHlo.after (hostOps0 (F := Ideal)) W main_v0 : S128x128.Idx → EReal) (ix2 k j)
      = (W main_arg3 : S128x128.Idx → EReal) (ix2 j k) := by
  dsimp only [hostOps0]; after_results
  exact transpose_ix2_apply _ _ k j

theorem host0_v1 (j : Fin 128) :
    (StableHlo.after (hostOps0 (F := Ideal)) W main_v1 : S1x128.Idx → EReal) (ix2 (0 : Fin 1) j)
      = (W main_arg4 : S128.Idx → EReal) (ix1 j) := by
  dsimp only [hostOps0]; after_results
  exact shapeCast_a_1a_apply _ _ 0 j

end Cert.KernelIdeal.HostVal

end
-- ==== Proof.KV.HostBN.lean ====
import proofs.«426623_j69028714381392_1_alg».proof.Proof.Gen.KernelIdeal.Launch
import proofs.«426623_j69028714381392_1_alg».proof.Proof.SpecInp
import Idealize.ShloMosaic.Lib.StableHlo.Run
import Idealize.ShloMosaic.Lib.ValueIdx
import Idealize.ShloMosaic.Lib.ValueLayout

noncomputable section

namespace Cert.KernelIdeal.HostVal

open Cert.KernelIdeal Cert.KernelIdeal.Gen Idealize.ShloMosaic Idealize.ShloMosaic.ValueIdx Idealize.ShloMosaic.TcCoe

abbrev cntRow : FVec Ideal S1x128 .f32 := broadcastInDim S1x128 ![] bcast_S_S1x128 (constant (F := Ideal) S_ .f32 0x491C4000#32)
abbrev epsRow : FVec Ideal S1x128 .f32 := broadcastInDim S1x128 ![] bcast_S_S1x128 (constant (F := Ideal) S_ .f32 0x3727C5AC#32)

abbrev scaleRow (s q : FVec Ideal S1x128 .f32) (g : FVec Ideal S128 .f32) : FVec Ideal S1x128 .f32 :=
  mulf (shapeCast S1x128 g shapeCasts_S128_S1x128)
    (Host.rsqrt (addf (subf (Host.divf q cntRow) (mulf (Host.divf s cntRow) (Host.divf s cntRow))) epsRow))

abbrev shiftRow (s q : FVec Ideal S1x128 .f32) (g be : FVec Ideal S128 .f32) : FVec Ideal S1x128 .f32 :=
  subf (shapeCast S1x128 be shapeCasts_S128_S1x128) (mulf (Host.divf s cntRow) (scaleRow s q g))

theorem scaleRow_apply (s q : FVec Ideal S1x128 .f32) (g : FVec Ideal S128 .f32) (j : Fin 128) :
    scaleRow s q g (ix2 (0 : Fin 1) j)
      = Cert.Spec.scaleK (fun j => s (ix2 (0 : Fin 1) j)) (fun j => q (ix2 (0 : Fin 1) j)) (fun j => g (ix1 j)) j := by
  show shapeCast S1x128 g shapeCasts_S128_S1x128 (ix2 (0 : Fin 1) j) * _ = _
  rw [shapeCast_a_1a_apply]
  rfl

theorem shiftRow_apply (s q : FVec Ideal S1x128 .f32) (g be : FVec Ideal S128 .f32) (j : Fin 128) :
    shiftRow s q g be (ix2 (0 : Fin 1) j)
      = Cert.Spec.shiftK (fun j => s (ix2 (0 : Fin 1) j)) (fun j => q (ix2 (0 : Fin 1) j)) (fun j => g (ix1 j))
          (fun j => be (ix1 j)) j := by
  show shapeCast S1x128 be shapeCasts_S128_S1x128 (ix2 (0 : Fin 1) j) - _ * scaleRow s q g (ix2 (0 : Fin 1) j) = _
  rw [shapeCast_a_1a_apply, scaleRow_apply]
  rfl

variable (W : Valuation τ sig (Elt Ideal))

theorem bn1_v25 (j : Fin 128) :
    (StableHlo.after (hostOps2 (F := Ideal)) W main_v25 : S1x128.Idx → EReal) (ix2 (0 : Fin 1) j)
      = Cert.Spec.scaleK (fun j => (W main_v14_1 : S1x128.Idx → EReal) (ix2 (0 : Fin 1) j))
          (fun j => (W main_v14_2 : S1x128.Idx → EReal) (ix2 (0 : Fin 1) j)) (fun j => (W main_arg7 : S128.Idx → EReal) (ix1 j)) j := by
  dsimp only [hostOps2]; after_results_simp
  exact scaleRow_apply _ _ _ j

theorem bn1_v28 (j : Fin 128) :
    (StableHlo.after (hostOps2 (F := Ideal)) W main_v28 : S1x128.Idx → EReal) (ix2 (0 : Fin 1) j)
      = Cert.Spec.shiftK (fun j => (W main_v14_1 : S1x128.Idx → EReal) (ix2 (0 : Fin 1) j))
          (fun j => (W main_v14_2 : S1x128.Idx → EReal) (ix2 (0 : Fin 1) j)) (fun j => (W main_arg7 : S128.Idx → EReal) (ix1 j))
          (fun j => (W main_arg8 : S128.Idx → EReal) (ix1 j)) j := by
  dsimp only [hostOps2]; after_results_simp
  exact shiftRow_apply _ _ _ _ j

theorem bn1_v29 (k j : Fin 128) :
    (StableHlo.after (hostOps2 (F := Ideal)) W main_v29 : S128x128.Idx → EReal) (ix2 k j)
      = (W main_arg9 : S128x128.Idx → EReal) (ix2 j k) := by
  dsimp only [hostOps2]; after_results_simp
  exact transpose_ix2_apply _ _ k j

theorem bn1_v30 (j : Fin 128) :
    (StableHlo.after (hostOps2 (F := Ideal)) W main_v30 : S1x128.Idx → EReal) (ix2 (0 : Fin 1) j)
      = (W main_arg10 : S128.Idx → EReal) (ix1 j) := by
  dsimp only [hostOps2]; after_results_simp
  exact shapeCast_a_1a_apply _ _ 0 j

theorem bn2_v42 (j : Fin 128) :
    (StableHlo.after (hostOps3 (F := Ideal)) W main_v42 : S1x128.Idx → EReal) (ix2 (0 : Fin 1) j)
      = Cert.Spec.scaleK (fun j => (W main_v31_1 : S1x128.Idx → EReal) (ix2 (0 : Fin 1) j))
          (fun j => (W main_v31_2 : S1x128.Idx → EReal) (ix2 (0 : Fin 1) j)) (fun j => (W main_arg11 : S128.Idx → EReal) (ix1 j)) j := by
  dsimp only [hostOps3]; after_results_simp
  exact scaleRow_apply _ _ _ j

theorem bn2_v45 (j : Fin 128) :
    (StableHlo.after (hostOps3 (F := Ideal)) W main_v45 : S1x128.Idx → EReal) (ix2 (0 : Fin 1) j)
      = Cert.Spec.shiftK (fun j => (W main_v31_1 : S1x128.Idx → EReal) (ix2 (0 : Fin 1) j))
          (fun j => (W main_v31_2 : S1x128.Idx → EReal) (ix2 (0 : Fin 1) j)) (fun j => (W main_arg11 : S128.Idx → EReal) (ix1 j))
          (fun j => (W main_arg12 : S128.Idx → EReal) (ix1 j)) j := by
  dsimp only [hostOps3]; after_results_simp
  exact shiftRow_apply _ _ _ _ j

end Cert.KernelIdeal.HostVal

end
-- ==== Proof.KV.HostTake.lean ====
import proofs.«426623_j69028714381392_1_alg».proof.Proof.Gen.KernelIdeal.Launch
import proofs.«426623_j69028714381392_1_alg».proof.Proof.SpecInp
import proofs.«426623_j69028714381392_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.Lib.ReduceAll

noncomputable section

namespace Cert.KernelIdeal.HostVal

open Cert.KernelIdeal Cert.KernelIdeal.Gen Idealize.ShloMosaic Idealize.ShloMosaic.ValueIdx Idealize.ShloMosaic.TcCoe

variable {α : Type}

theorem bcast_down_apply {n m : Nat} (h : (⟨1, ![n]⟩ : Shape).BroadcastsInDim ⟨2, ![n, m]⟩ ![0])
    (v : (⟨1, ![n]⟩ : Shape).Idx → α) (e : Fin n) (j : Fin m) :
    broadcastInDim ⟨2, ![n, m]⟩ ![0] h v (ix2 e j) = v (ix1 e) :=
  broadcastInDim_apply _ h v _ _ fun a => by
    obtain rfl : a = 0 := Subsingleton.elim _ _
    have := e.isLt
    show e.val = if n = 1 then 0 else e.val
    split <;> omega

theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf =>
    foldl_andi_one f l _ (IntOp.andi_eq_one.2 ⟨hi, hf a List.mem_cons_self⟩) fun n hn => hf n (List.mem_cons_of_mem _ hn)

theorem reduce_andi_one {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl]
  exact foldl_andi_one x _ _ (hi _) fun n _ => hx n

theorem clamp_eq_node {w : BitVec 32} (h0 : 0 ≤ w.toInt) (h1 : w.toInt < 50000) :
    min w.toInt.toNat (50000 - 1) = (Cert.Spec.node w).val := by
  have hlt : 2 * w.toNat < 2 ^ 32 := BitVec.toInt_pos_iff.1 h0
  have e : w.toInt = (w.toNat : Int) := BitVec.toInt_eq_toNat_of_lt hlt
  rw [e] at h1
  rw [e, Int.toNat_natCast]
  show _ = w.toNat % 50000
  omega

abbrev wrapIdx (idx : IVec S640000 32) : IVec S640000 32 :=
  select (cmpi .slt idx (broadcastInDim S640000 ![] bcast_S_S640000 (constantI S_ 32 0#32)))
    (addi idx (broadcastInDim S640000 ![] bcast_S_S640000 (constantI S_ 32 50000#32))) idx

abbrev idxCol (idx : IVec S640000 32) : IVec S640000x1 32 :=
  broadcastInDim S640000x1 ![0] bcast_S640000_S640000x1_0 (wrapIdx idx)

abbrev inBoundsC (col : IVec S640000x1 32) : IVec S640000 1 :=
  Host.reduce IntOp.andi
    (andi (cmpi .sge col (broadcastInDim S640000x1 ![] bcast_S_S640000x1 (constantI S_ 32 0#32)))
      (cmpi .sle col (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_

abbrev fetchRows (ok : IVec S640000 1) (tbl : FVec Ideal S50000x128 .f32) (col : IVec S640000x1 32) : FVec Ideal S640000x128 .f32 :=
  select (broadcastInDim S640000x128 ![0] bcast_S640000_S640000x128_0 ok) (Host.gather gather_S50000x128_S640000x1_S640000x128_1_0_n_n_0_1_1128 tbl col)
    (broadcastInDim S640000x128 ![] bcast_S_S640000x128 (constant (F := Ideal) S_ .f32 0x7FC00000#32))

abbrev takeRowsC (tbl : FVec Ideal S50000x128 .f32) (col : IVec S640000x1 32) : FVec Ideal S640000x128 .f32 :=
  fetchRows (inBoundsC col) tbl col

theorem wrapIdx_apply (idx : IVec S640000 32) (e : Fin 640000) (h0 : 0 ≤ (idx (ix1 e)).toInt) :
    wrapIdx idx (ix1 e) = idx (ix1 e) := by
  show Scalar.select (IntOp.cmpi .slt (idx (ix1 e)) 0#32) (IntOp.addi (idx (ix1 e)) 50000#32) (idx (ix1 e)) = _
  have hz : (0#32 : BitVec 32).toInt = 0 := by decide
  have hn : ¬ IntOp.cmpi .slt (idx (ix1 e)) 0#32 = 1#1 := by rw [IntOp.cmpi_slt, hz]; omega
  unfold Scalar.select
  exact if_neg hn

theorem idxCol_apply (idx : IVec S640000 32) (e : Fin 640000) (u : Fin 1) (h0 : 0 ≤ (idx (ix1 e)).toInt) :
    idxCol idx (ix2 e u) = idx (ix1 e) := by
  show broadcastInDim S640000x1 ![0] bcast_S640000_S640000x1_0 (wrapIdx idx) (ix2 e u) = _
  rw [bcast_down_apply, wrapIdx_apply idx e h0]

theorem inBounds_apply (idx : IVec S640000 32)
    (hall : ∀ e : Fin 640000, 0 ≤ (idx (ix1 e)).toInt ∧ (idx (ix1 e)).toInt < 50000) (k : S640000.Idx) :
    inBoundsC (idxCol idx) k = 1#1 := by
  refine reduce_andi_one _ _ _ _ (fun _ => rfl) (fun i => ?_) k
  obtain ⟨e, u, rfl⟩ : ∃ (e : Fin 640000) (u : Fin 1), i = ix2 e u := ⟨i 0, i 1, eq_ix2 i⟩
  show IntOp.andi (IntOp.cmpi .sge (idxCol idx (ix2 e u)) 0#32) (IntOp.cmpi .sle (idxCol idx (ix2 e u)) 49999#32) = 1#1
  rw [idxCol_apply idx e u (hall e).1, IntOp.andi_eq_one, IntOp.cmpi_sge, IntOp.cmpi_sle]
  have hz : (0#32 : BitVec 32).toInt = 0 := by decide
  have hm : (49999#32 : BitVec 32).toInt = 49999 := by decide
  rw [hz, hm]
  have := hall e
  omega

theorem gather_rows_apply (tbl : S50000x128.Idx → α) (col : IVec S640000x1 32) (e : Fin 640000) (j : Fin 128) :
    Host.gather gather_S50000x128_S640000x1_S640000x128_1_0_n_n_0_1_1128 tbl col (ix2 e j)
      = tbl (ix2 ⟨min (col (ix2 e (0 : Fin 1))).toInt.toNat (50000 - 1), by omega⟩ j) := by
  have hsi : gather_S50000x128_S640000x1_S640000x128_1_0_n_n_0_1_1128.siIdx (ix2 e j) ⟨List.idxOf (0 : Fin 2) gather_S50000x128_S640000x1_S640000x128_1_0_n_n_0_1_1128.startIndexMap,
      List.idxOf_lt_length_iff.2 (List.mem_singleton.mpr rfl)⟩ = ix2 e (0 : Fin 1) :=
    Shape.idx_ext₂ rfl rfl
  unfold Host.gather
  refine congrArg tbl (Shape.idx_ext₂ ?_ ?_)
  · show _ + _ + _ = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S50000x128_S640000x1_S640000x128_1_0_n_n_0_1_1128.startIndexMap from List.mem_singleton.mpr rfl), hsi]
    rfl
  · show _ + _ + _ = j.val
    rw [GatherDims.batchCoord_eq_zero _ _ _ List.not_mem_nil]
    unfold GatherDims.start
    rw [dif_neg (show ¬ (1 : Fin 2) ∈ gather_S50000x128_S640000x1_S640000x128_1_0_n_n_0_1_1128.startIndexMap by decide)]
    simp only [Nat.add_zero, Nat.zero_add]
    rfl

theorem takeRows_apply (tbl : FVec Ideal S50000x128 .f32) (idx : IVec S640000 32)
    (hall : ∀ e : Fin 640000, 0 ≤ (idx (ix1 e)).toInt ∧ (idx (ix1 e)).toInt < 50000) (e : Fin 640000) (j : Fin 128) :
    takeRowsC tbl (idxCol idx) (ix2 e j) = tbl (ix2 (Cert.Spec.node (idx (ix1 e))) j) := by
  show Scalar.select (broadcastInDim S640000x128 ![0] bcast_S640000_S640000x128_0 (inBoundsC (idxCol idx)) (ix2 e j))
      (Host.gather gather_S50000x128_S640000x1_S640000x128_1_0_n_n_0_1_1128 tbl (idxCol idx) (ix2 e j)) _ = _
  rw [bcast_down_apply, inBounds_apply idx hall, gather_rows_apply]
  unfold Scalar.select
  rw [if_pos (show (1#1 : BitVec 1) = 1 by decide)]
  refine congrArg (fun k => tbl (ix2 k j)) (Fin.ext ?_)
  show min (idxCol idx (ix2 e (0 : Fin 1))).toInt.toNat (50000 - 1) = _
  rw [idxCol_apply idx e 0 (hall e).1]
  exact clamp_eq_node (hall e).1 (hall e).2

abbrev idxRow (o : Nat) (h : S2x640000.Slices ![o, 0] S1x640000) (a1 : IVec S2x640000 32) : IVec S640000 32 :=
  shapeCast S640000 (extractStridedSlice S1x640000 ![o, 0] a1 h) shapeCasts_S1x640000_S640000

theorem idxRow_apply (o : Nat) (h : S2x640000.Slices ![o, 0] S1x640000) (a1 : IVec S2x640000 32) (p : Fin 2) (hp : p.val = o)
    (e : Fin 640000) : idxRow o h a1 (ix1 e) = a1 (ix2 p e) := by
  show shapeCast S640000 _ shapeCasts_S1x640000_S640000 (ix1 e) = _
  rw [shapeCast_1a_a_apply]
  exact slice2_axis0_apply o a1 _ (0 : Fin 1) e p hp

section Stretches
variable (V : Valuation τ sig (Elt Ideal))

theorem ops1_v4 : (StableHlo.after (hostOps1 (F := Ideal)) V main_v4 : IVec S640000 32) = idxRow 0 slices_S2x640000_S1x640000_0_0 (V main_arg1) := by
  dsimp only [hostOps1]; after_results_simp <;> rfl
theorem ops1_v6 : (StableHlo.after (hostOps1 (F := Ideal)) V main_v6 : IVec S640000 32) = idxRow 1 slices_S2x640000_S1x640000_1_0 (V main_arg1) := by
  dsimp only [hostOps1]; after_results_simp <;> rfl

theorem t1A : (StableHlo.after ((hostOps1_1 (F := Ideal)).take 18) V main_call0_v5 : IVec S640000x1 32) = idxCol (V main_v4)
    ∧ (StableHlo.after ((hostOps1_1 (F := Ideal)).take 18) V main_call0_v12 : IVec S640000 1) = inBoundsC (idxCol (V main_v4))
    ∧ StableHlo.after ((hostOps1_1 (F := Ideal)).take 18) V main_v2 = V main_v2 := by
  dsimp only [hostOps1_1, List.take]
  refine ⟨?_, ?_, ?_⟩ <;> after_results_simp <;> dsimp only [StableHlo.TRef.ofBuf, StableHlo.TRef.toBuf, cast_eq]
theorem t1C : (StableHlo.after ((hostOps1_1 (F := Ideal)).drop 18) V main_v7 : FVec Ideal S640000x128 .f32)
    = fetchRows (V main_call0_v12) (V main_v2) (V main_call0_v5) := by
  dsimp only [hostOps1_1, List.drop]
  after_results_simp
  dsimp only [StableHlo.TRef.ofBuf, StableHlo.TRef.toBuf, cast_eq]
theorem t1_res : (StableHlo.after (hostOps1_1 (F := Ideal)) V main_v7 : FVec Ideal S640000x128 .f32) = takeRowsC (V main_v2) (idxCol (V main_v4)) := by
  rw [show (hostOps1_1 (F := Ideal)) = (hostOps1_1 (F := Ideal)).take 18 ++ (hostOps1_1 (F := Ideal)).drop 18 from rfl,
    StableHlo.after_append, t1C, (t1A V).2.1, (t1A V).1, (t1A V).2.2]
theorem t2A : (StableHlo.after ((hostOps1_2 (F := Ideal)).take 18) V main_call1_v5 : IVec S640000x1 32) = idxCol (V main_v6)
    ∧ (StableHlo.after ((hostOps1_2 (F := Ideal)).take 18) V main_call1_v12 : IVec S640000 1) = inBoundsC (idxCol (V main_v6))
    ∧ StableHlo.after ((hostOps1_2 (F := Ideal)).take 18) V main_v2 = V main_v2 := by
  dsimp only [hostOps1_2, List.take]
  refine ⟨?_, ?_, ?_⟩ <;> after_results_simp <;> dsimp only [StableHlo.TRef.ofBuf, StableHlo.TRef.toBuf, cast_eq]
theorem t2C : (StableHlo.after ((hostOps1_2 (F := Ideal)).drop 18) V main_v8 : FVec Ideal S640000x128 .f32)
    = fetchRows (V main_call1_v12) (V main_v2) (V main_call1_v5) := by
  dsimp only [hostOps1_2, List.drop]
  after_results_simp
  dsimp only [StableHlo.TRef.ofBuf, StableHlo.TRef.toBuf, cast_eq]
theorem t2_res : (StableHlo.after (hostOps1_2 (F := Ideal)) V main_v8 : FVec Ideal S640000x128 .f32) = takeRowsC (V main_v2) (idxCol (V main_v6)) := by
  rw [show (hostOps1_2 (F := Ideal)) = (hostOps1_2 (F := Ideal)).take 18 ++ (hostOps1_2 (F := Ideal)).drop 18 from rfl,
    StableHlo.after_append, t2C, (t2A V).2.1, (t2A V).1, (t2A V).2.2]

theorem ops13_v9 : (StableHlo.after (hostOps1_3 (F := Ideal)) V main_v9 : FVec Ideal S640000x128 .f32)
    = (addf (V main_v7) (V main_v8) : FVec Ideal S640000x128 .f32) := by
  dsimp only [hostOps1_3]; after_results_simp <;> rfl
theorem ops13_v11 : (StableHlo.after (hostOps1_3 (F := Ideal)) V main_v11 : S128x128.Idx → EReal)
    = extractStridedSlice S128x128 ![0, 0]
        (transpose S256x128 [1, 0] (V main_arg5 : S128x256.Idx → EReal) transposes_S128x256_S256x128_1_0)
        slices_S256x128_S128x128_0_0 := by
  dsimp only [hostOps1_3]; after_results_simp <;> rfl
theorem ops13_v12 : (StableHlo.after (hostOps1_3 (F := Ideal)) V main_v12 : S128x128.Idx → EReal)
    = extractStridedSlice S128x128 ![128, 0]
        (transpose S256x128 [1, 0] (V main_arg5 : S128x256.Idx → EReal) transposes_S128x256_S256x128_1_0)
        slices_S256x128_S128x128_128_0 := by
  dsimp only [hostOps1_3]; after_results_simp <;> rfl
theorem ops13_v13 : (StableHlo.after (hostOps1_3 (F := Ideal)) V main_v13 : S1x128.Idx → EReal)
    = shapeCast S1x128 (V main_arg6 : S128.Idx → EReal) shapeCasts_S128_S1x128 := by
  dsimp only [hostOps1_3]; after_results_simp <;> rfl

end Stretches

variable (W : Valuation τ sig (Elt Ideal))

abbrev afterTake : Valuation τ sig (Elt Ideal) :=
  StableHlo.after (hostOps1_3 (F := Ideal)) (StableHlo.after (hostOps1_2 (F := Ideal))
    (StableHlo.after (hostOps1_1 (F := Ideal)) (StableHlo.after (hostOps1 (F := Ideal)) W)))

-- A buffer none of the first three stretches writes holds what it held before them.
theorem keep3 (r : Ref sig .tc) (h1 : r ∉ hostOps1_W) (h2 : r ∉ hostOps1_1_W) (h3 : r ∉ hostOps1_2_W) :
    StableHlo.after (hostOps1_2 (F := Ideal)) (StableHlo.after (hostOps1_1 (F := Ideal)) (StableHlo.after (hostOps1 (F := Ideal)) W)) r = W r :=
  (StableHlo.after_of_writes_sub _ _ hostOps1_2_writes h3).trans <| (StableHlo.after_of_writes_sub _ _ hostOps1_1_writes h2).trans
    (StableHlo.after_of_writes_sub _ _ hostOps1_writes h1)

theorem take_v9
    (hr : ∀ (p : Fin 2) (e : Fin 640000), 0 ≤ ((W main_arg1 : IVec S2x640000 32) (ix2 p e)).toInt
      ∧ ((W main_arg1 : IVec S2x640000 32) (ix2 p e)).toInt < 50000)
    (e : Fin 640000) (j : Fin 128) :
    (afterTake W main_v9 : S640000x128.Idx → EReal) (ix2 e j)
      = HAdd.hAdd (α := EReal) (β := EReal) (γ := EReal)
          ((W main_v2 : S50000x128.Idx → EReal) (ix2 (Cert.Spec.node ((W main_arg1 : IVec S2x640000 32) (ix2 (0 : Fin 2) e))) j))
          ((W main_v2 : S50000x128.Idx → EReal) (ix2 (Cert.Spec.node ((W main_arg1 : IVec S2x640000 32) (ix2 (1 : Fin 2) e))) j)) := by
  unfold afterTake
  rw [ops13_v9, StableHlo.after_of_writes_sub _ _ hostOps1_2_writes (by decide : main_v7 ∉ hostOps1_2_W), t2_res, t1_res,
    StableHlo.after_of_writes_sub _ _ hostOps1_1_writes (by decide : main_v2 ∉ hostOps1_1_W),
    StableHlo.after_of_writes_sub _ _ hostOps1_1_writes (by decide : main_v6 ∉ hostOps1_1_W), ops1_v4, ops1_v6,
    StableHlo.after_of_writes_sub _ _ hostOps1_writes (by decide : main_v2 ∉ hostOps1_W), addf_apply,
    takeRows_apply _ _ (fun e => by rw [idxRow_apply 0 _ _ 0 rfl]; exact hr 0 e),
    takeRows_apply _ _ (fun e => by rw [idxRow_apply 1 _ _ 1 rfl]; exact hr 1 e), idxRow_apply 0 _ _ 0 rfl, idxRow_apply 1 _ _ 1 rfl]

theorem take_v11 (k j : Fin 128) :
    (afterTake W main_v11 : S128x128.Idx → EReal) (ix2 k j)
      = (W main_arg5 : S128x256.Idx → EReal) (ix2 j (Fin.castAdd 128 k)) := by
  unfold afterTake
  rw [ops13_v11, keep3 W main_arg5 (by decide) (by decide) (by decide)]
  exact (slice2_axis0_apply 0 _ _ k j (Fin.castAdd 128 k) (Nat.zero_add _).symm).trans (transpose_ix2_apply _ _ (Fin.castAdd 128 k) j)

theorem take_v12 (k j : Fin 128) :
    (afterTake W main_v12 : S128x128.Idx → EReal) (ix2 k j)
      = (W main_arg5 : S128x256.Idx → EReal) (ix2 j (Fin.natAdd 128 k)) := by
  unfold afterTake
  rw [ops13_v12, keep3 W main_arg5 (by decide) (by decide) (by decide)]
  exact (slice2_axis0_apply 128 _ _ k j (Fin.natAdd 128 k) rfl).trans (transpose_ix2_apply _ _ (Fin.natAdd 128 k) j)

theorem take_v13 (j : Fin 128) :
    (afterTake W main_v13 : S1x128.Idx → EReal) (ix2 (0 : Fin 1) j) = (W main_arg6 : S128.Idx → EReal) (ix1 j) := by
  unfold afterTake
  rw [ops13_v13, keep3 W main_arg6 (by decide) (by decide) (by decide)]
  exact shapeCast_a_1a_apply _ _ 0 j

end Cert.KernelIdeal.HostVal

end
-- ==== Proof.KV.Chain.lean ====
import proofs.«426623_j69028714381392_1_alg».proof.Proof.KI.RunVals
import proofs.«426623_j69028714381392_1_alg».proof.Proof.KV.Reg0Val
import proofs.«426623_j69028714381392_1_alg».proof.Proof.KV.Reg1Val
import proofs.«426623_j69028714381392_1_alg».proof.Proof.KV.Reg2Val
import proofs.«426623_j69028714381392_1_alg».proof.Proof.KV.Reg3Val
import proofs.«426623_j69028714381392_1_alg».proof.Proof.KV.Host0
import proofs.«426623_j69028714381392_1_alg».proof.Proof.KV.HostBN
import proofs.«426623_j69028714381392_1_alg».proof.Proof.KV.HostTake
import proofs.«426623_j69028714381392_1_alg».proof.Proof.SpecInp

set_option maxRecDepth 16384

noncomputable section

namespace Cert.KernelIdeal.Val

open Cert.KernelIdeal Cert.KernelIdeal.Gen Cert.KernelIdeal.Hand Cert.KernelIdeal.HostVal
open Idealize.ShloMosaic Idealize.ShloMosaic.TcCoe Idealize.SL.Sem
open Idealize.ShloMosaic.ValueIdx
open scoped BigOperators

variable (m : (ℓ : Loc nD τ sig) → Buf (Elt Ideal) ℓ) (c : Dev nD)

abbrev inpK : Cert.Spec.Inp :=
  Cert.Spec.inpOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12))

abbrev IdxRange : Prop :=
  ∀ (p : Fin 2) (e : Fin 640000),
    0 ≤ ((m ((c.tc : Thread nD τ).loc main_arg1) : S2x640000.Idx → BitVec 32) (ix2 p e)).toInt
      ∧ ((m ((c.tc : Thread nD τ).loc main_arg1) : S2x640000.Idx → BitVec 32) (ix2 p e)).toInt < 50000

abbrev Kept (r : Ref sig .tc) : Prop :=
  r ∉ hostOps0_W ∧ r ≠ main_v2 ∧ r ∉ hostOps1_W ∧ r ∉ hostOps1_1_W ∧ r ∉ hostOps1_2_W ∧ r ∉ hostOps1_3_W
    ∧ r ≠ main_v14_0 ∧ r ≠ main_v14_1 ∧ r ≠ main_v14_2 ∧ r ∉ hostOps2_W ∧ r ≠ main_v31_0 ∧ r ≠ main_v31_1 ∧ r ≠ main_v31_2

-- A buffer no region and no host stretch writes holds its launch contents at every boundary.
theorem keep (r : Ref sig .tc) (h : Kept r) :
    X1 m c r = m ((c.tc : Thread nD τ).loc r) ∧ X2 m c r = m ((c.tc : Thread nD τ).loc r) ∧ X6 m c r = m ((c.tc : Thread nD τ).loc r)
      ∧ X7 m c r = m ((c.tc : Thread nD τ).loc r) ∧ X9 m c r = m ((c.tc : Thread nD τ).loc r) := by
  obtain ⟨h0, h2, h3, h4, h5, h6, a0, a1, a2, h8, b0, b1, b2⟩ := h
  have e1 : X1 m c r = m ((c.tc : Thread nD τ).loc r) := StableHlo.after_of_writes_sub hostOps0 (V0 m c) hostOps0_writes h0
  have e2 := (X2_of_ne m c r h2).trans e1
  have e6 : X6 m c r = m ((c.tc : Thread nD τ).loc r) := (StableHlo.after_of_writes_sub hostOps1_3 (X5 m c) hostOps1_3_writes h6).trans <|
    (StableHlo.after_of_writes_sub hostOps1_2 (X4 m c) hostOps1_2_writes h5).trans <|
      (StableHlo.after_of_writes_sub hostOps1_1 (X3 m c) hostOps1_1_writes h4).trans <|
        (StableHlo.after_of_writes_sub hostOps1 (X2 m c) hostOps1_writes h3).trans e2
  have e7 := (X7_of_ne m c r a0 a1 a2).trans e6
  exact ⟨e1, e2, e6, e7, (X9_of_ne m c r b0 b1 b2).trans <|
    (StableHlo.after_of_writes_sub hostOps2 (X7 m c) hostOps2_writes h8).trans e7⟩

theorem val_o2 (i : Fin 50000) (j : Fin 128) :
    (o2 m c : S50000x128.Idx → EReal) (ix2 i j) = Cert.Spec.h (inpK m c) i j :=
  reg0_val (X1' m) c (inpK m c).x (fun k j => (inpK m c).Wl j k) (inpK m c).bl
    (fun i k => congrFun (keep m c main_arg0 (by decide)).1 (ix2 i k))
    (fun k j => host0_v0 (V0 m c) k j) (fun j => host0_v1 (V0 m c) j) i j

theorem X6_v9 (hr : IdxRange m c) (e : Fin 640000) (j : Fin 128) :
    (X6 m c main_v9 : S640000x128.Idx → EReal) (ix2 e j) = Cert.Spec.agg (inpK m c) e j := by
  have hW1 := (keep m c main_arg1 (by decide)).2.1
  have t := take_v9 (X2 m c) (by rw [hW1]; exact hr) e j
  rw [hW1, X2_main_v2] at t
  refine t.trans ?_
  rw [val_o2, val_o2]
  rfl

theorem val_o7 (hr : IdxRange m c) :
    (∀ e j, (o7_0 m c : S640000x128.Idx → EReal) (ix2 e j) = Cert.Spec.u1K (inpK m c) e j)
      ∧ (∀ j, (o7_1 m c : S1x128.Idx → EReal) (ix2 (0 : Fin 1) j) = Cert.Spec.colsum (Cert.Spec.u1K (inpK m c)) j)
      ∧ (∀ j, (o7_2 m c : S1x128.Idx → EReal) (ix2 (0 : Fin 1) j) = Cert.Spec.colsumsq (Cert.Spec.u1K (inpK m c)) j) :=
  reg1_val (X6' m) c (Cert.Spec.agg (inpK m c)) (inpK m c).ea (fun k j => (inpK m c).W1 j (Fin.castAdd 128 k))
    (fun k j => (inpK m c).W1 j (Fin.natAdd 128 k)) (inpK m c).b1
    (X6_v9 m c hr) (fun e k => congrFun (keep m c main_arg2 (by decide)).2.2.1 (ix2 e k))
    (fun k j => (take_v11 (X2 m c) k j).trans (congrFun (keep m c main_arg5 (by decide)).2.1 _))
    (fun k j => (take_v12 (X2 m c) k j).trans (congrFun (keep m c main_arg5 (by decide)).2.1 _))
    (fun j => (take_v13 (X2 m c) j).trans (congrFun (keep m c main_arg6 (by decide)).2.1 _))

-- The scale and shift of a normalisation depend on the sums and gains only through their entries.
theorem bn_congr {s' q' : S1x128.Idx → EReal} {g' be' : S128.Idx → EReal} {s q g be : Fin 128 → EReal}
    (hs : ∀ j, s' (ix2 (0 : Fin 1) j) = s j) (hq : ∀ j, q' (ix2 (0 : Fin 1) j) = q j)
    (hg : ∀ j, g' (ix1 j) = g j) (hbe : ∀ j, be' (ix1 j) = be j) (j : Fin 128) :
    Cert.Spec.scaleK (fun j => s' (ix2 (0 : Fin 1) j)) (fun j => q' (ix2 (0 : Fin 1) j)) (fun j => g' (ix1 j)) j
        = Cert.Spec.scaleK s q g j
      ∧ Cert.Spec.shiftK (fun j => s' (ix2 (0 : Fin 1) j)) (fun j => q' (ix2 (0 : Fin 1) j)) (fun j => g' (ix1 j))
          (fun j => be' (ix1 j)) j = Cert.Spec.shiftK s q g be j := by
  rw [funext hs, funext hq, funext hg, funext hbe]
  exact ⟨rfl, rfl⟩

theorem val_o9 (hr : IdxRange m c) :
    (∀ e j, (o9_0 m c : S640000x128.Idx → EReal) (ix2 e j) = Cert.Spec.u2K (inpK m c) e j)
      ∧ (∀ j, (o9_1 m c : S1x128.Idx → EReal) (ix2 (0 : Fin 1) j) = Cert.Spec.colsum (Cert.Spec.u2K (inpK m c)) j)
      ∧ (∀ j, (o9_2 m c : S1x128.Idx → EReal) (ix2 (0 : Fin 1) j) = Cert.Spec.colsumsq (Cert.Spec.u2K (inpK m c)) j) := by
  obtain ⟨h0, h1, h2⟩ := val_o7 m c hr
  have B := bn_congr (fun j => (congrFun (X7_at1 m c) _).trans (h1 j)) (fun j => (congrFun (X7_at2 m c) _).trans (h2 j))
    (fun j => congrFun (keep m c main_arg7 (by decide)).2.2.2.1 (ix1 j)) (fun j => congrFun (keep m c main_arg8 (by decide)).2.2.2.1 (ix1 j))
  exact reg2_val (X8' m) c (Cert.Spec.u1K (inpK m c))
    (Cert.Spec.scaleK (Cert.Spec.colsum (Cert.Spec.u1K (inpK m c))) (Cert.Spec.colsumsq (Cert.Spec.u1K (inpK m c))) (inpK m c).g1)
    (Cert.Spec.shiftK (Cert.Spec.colsum (Cert.Spec.u1K (inpK m c))) (Cert.Spec.colsumsq (Cert.Spec.u1K (inpK m c))) (inpK m c).g1
      (inpK m c).be1)
    (fun k j => (inpK m c).W2 j k) (inpK m c).b2
    (fun e k => (congrFun ((StableHlo.after_of_writes_sub hostOps2 (X7 m c) hostOps2_writes (by decide)).trans (X7_at0 m c)) _).trans (h0 e k))
    (fun j => (bn1_v25 (X7 m c) j).trans (B j).1) (fun j => (bn1_v28 (X7 m c) j).trans (B j).2)
    (fun k j => (bn1_v29 (X7 m c) k j).trans (congrFun (keep m c main_arg9 (by decide)).2.2.2.1 _))
    (fun j => (bn1_v30 (X7 m c) j).trans (congrFun (keep m c main_arg10 (by decide)).2.2.2.1 _))

theorem val_o11 (hr : IdxRange m c) (e : Fin 640000) (j : Fin 128) :
    (o11 m c : S640000x128.Idx → EReal) (ix2 e j) = Cert.Spec.zK (inpK m c) e j := by
  obtain ⟨h0, h1, h2⟩ := val_o9 m c hr
  have B := bn_congr (fun j => (congrFun (X9_at1 m c) _).trans (h1 j)) (fun j => (congrFun (X9_at2 m c) _).trans (h2 j))
    (fun j => congrFun (keep m c main_arg11 (by decide)).2.2.2.2 (ix1 j)) (fun j => congrFun (keep m c main_arg12 (by decide)).2.2.2.2 (ix1 j))
  exact reg3_val (X10' m) c (Cert.Spec.u2K (inpK m c))
    (Cert.Spec.scaleK (Cert.Spec.colsum (Cert.Spec.u2K (inpK m c))) (Cert.Spec.colsumsq (Cert.Spec.u2K (inpK m c))) (inpK m c).g2)
    (Cert.Spec.shiftK (Cert.Spec.colsum (Cert.Spec.u2K (inpK m c))) (Cert.Spec.colsumsq (Cert.Spec.u2K (inpK m c))) (inpK m c).g2
      (inpK m c).be2)
    (fun e j => (congrFun ((StableHlo.after_of_writes_sub hostOps3 (X9 m c) hostOps3_writes (by decide)).trans (X9_at0 m c)) _).trans (h0 e j))
    (fun j => (bn2_v42 (X9 m c) j).trans (B j).1) (fun j => (bn2_v45 (X9 m c) j).trans (B j).2) e j

theorem chain
    (hr : ∀ (p : Fin 2) (e : Fin 640000),
      0 ≤ ((m ((c.tc : Thread nD τ).loc main_arg1) : S2x640000.Idx → BitVec 32) (ix2 p e)).toInt
        ∧ ((m ((c.tc : Thread nD τ).loc main_arg1) : S2x640000.Idx → BitVec 32) (ix2 p e)).toInt < 50000)
    (e : Fin 640000) (j : Fin 128) :
    (Cert.KernelIdeal.Hand.o11 (F := Ideal) m c : S640000x128.Idx → EReal) (ix2 e j)
      = Cert.Spec.zK (Cert.Spec.inpOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12))) e j :=
  val_o11 m c hr e j

end Cert.KernelIdeal.Val

end
-- ==== Proof.RV.Stages.lean ====
import proofs.«426623_j69028714381392_1_alg».proof.ReferenceIdeal

noncomputable section

namespace Cert.ReferenceIdeal.RefVal

open Cert.ReferenceIdeal Idealize.ShloMosaic
open Cert.ReferenceIdeal.Facts₀ Cert.ReferenceIdeal.Facts

variable {F : FTy → Type} [FloatOps F] [Facts]

def rows50000 (b : FVec F S128 .f32) : FVec F S50000x128 .f32 :=
  broadcastInDim S50000x128 ![0, 1] bcast_S1x128_S50000x128_0_1 (broadcastInDim S1x128 ![1] bcast_S128_S1x128_1 b)

def rows640000 (b : FVec F S128 .f32) : FVec F S640000x128 .f32 :=
  broadcastInDim S640000x128 ![0, 1] bcast_S1x128_S640000x128_0_1 (broadcastInDim S1x128 ![1] bcast_S128_S1x128_1 b)

def lin0 (x : FVec F S50000x128 .f32) (W : FVec F S128x128 .f32) (b : FVec F S128 .f32) : FVec F S50000x128 .f32 :=
  addf (Host.dotGeneral dot_S50000x128_S128x128_S50000x128_1_0_0_1_n_n none x
      (transpose S128x128 [1, 0] W transposes_S128x128_S128x128_1_0))
    (rows50000 b)

def row0 (a1 : IVec S2x640000 32) : IVec S640000 32 :=
  shapeCast S640000 (extractStridedSlice S1x640000 ![0, 0] a1 slices_S2x640000_S1x640000_0_0) shapeCasts_S1x640000_S640000

def row1 (a1 : IVec S2x640000 32) : IVec S640000 32 :=
  shapeCast S640000 (extractStridedSlice S1x640000 ![1, 0] a1 slices_S2x640000_S1x640000_1_0) shapeCasts_S1x640000_S640000

def wrap (r : IVec S640000 32) : IVec S640000x1 32 :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 50000#32))) r)

def gat (h : FVec F S50000x128 .f32) (i : IVec S640000x1 32) : FVec F S640000x128 .f32 :=
  Host.gather gather_S50000x128_S640000x1_S640000x128_1_0_n_n_0_1_1128 h i

def cat2 (a b : FVec F S640000x128 .f32) : FVec F S640000x256 .f32 :=
  concatenate S640000x256 1 [⟨S640000x128, a⟩, ⟨S640000x128, b⟩] concatenates_S640000x128_S640000x128_S640000x256_d1

def lin1 (c : FVec F S640000x256 .f32) (W : FVec F S128x256 .f32) (b : FVec F S128 .f32) : FVec F S640000x128 .f32 :=
  addf (Host.dotGeneral dot_S640000x256_S256x128_S640000x128_1_0_0_1_n_n none c
      (transpose S256x128 [1, 0] W transposes_S128x256_S256x128_1_0))
    (rows640000 b)

def lin2 (z : FVec F S640000x128 .f32) (W : FVec F S128x128 .f32) (b : FVec F S128 .f32) : FVec F S640000x128 .f32 :=
  addf (Host.dotGeneral dot_S640000x128_S128x128_S640000x128_1_0_0_1_n_n none z
      (transpose S128x128 [1, 0] W transposes_S128x128_S128x128_1_0))
    (rows640000 b)

def colsumV (u : FVec F S640000x128 .f32) : FVec F S128 .f32 :=
  Host.reduceAdd u (constant S_ .f32 0x00000000#32) reducesTo_S640000x128_S128_d0 h_S_

def meanV (u : FVec F S640000x128 .f32) : FVec F S128 .f32 :=
  Host.divf (colsumV u) (broadcastInDim S128 ![] bcast_S_S128 (constant S_ .f32 0x491C4000#32))

def cenV (u : FVec F S640000x128 .f32) : FVec F S640000x128 .f32 :=
  subf u (broadcastInDim S640000x128 ![0, 1] bcast_S1x128_S640000x128_0_1
    (Host.divf (broadcastInDim S1x128 ![1] bcast_S128_S1x128_1 (colsumV u))
      (broadcastInDim S1x128 ![] bcast_S_S1x128 (constant S_ .f32 0x491C4000#32))))

def cntV : FVec F S_ .f32 :=
  subf (constant S_ .f32 0x491C4000#32) (sitofp (F := F) .f32 (constantI S_ 32 0#32))

def varV (u : FVec F S640000x128 .f32) : FVec F S128 .f32 :=
  select (broadcastInDim S128 ![] bcast_S_S128 (cmpf (F := F) .ogt cntV (constant S_ .f32 0x00000000#32)))
    (Host.divf (Host.reduceAdd (mulf (cenV u) (cenV u)) (constant S_ .f32 0x00000000#32) reducesTo_S640000x128_S128_d0 h_S_)
      (broadcastInDim S128 ![] bcast_S_S128 cntV))
    (broadcastInDim S128 ![] bcast_S_S128 (id (constant S_ .f32 0x7FC00000#32)))

def bnrelu (u : FVec F S640000x128 .f32) (g be : FVec F S128 .f32) : FVec F S640000x128 .f32 :=
  maximumf
    (addf
      (mulf
        (mulf (subf u (rows640000 (meanV u)))
          (rows640000 (Host.rsqrt (addf (varV u) (broadcastInDim S128 ![] bcast_S_S128 (constant S_ .f32 0x3727C5AC#32))))))
        (rows640000 g))
      (rows640000 be))
    (broadcastInDim S640000x128 ![] bcast_S_S640000x128 (constant S_ .f32 0x00000000#32))

section
variable (a0 : FVec F S50000x128 .f32) (a1 : IVec S2x640000 32) (a2 : FVec F S640000x128 .f32)
  (a3 : FVec F S128x128 .f32) (a4 : FVec F S128 .f32) (a5 : FVec F S128x256 .f32) (a6 a7 a8 : FVec F S128 .f32)
  (a9 : FVec F S128x128 .f32) (a10 a11 a12 : FVec F S128 .f32)

def val_v4 : FVec F S50000x128 .f32 := lin0 a0 a3 a4
def val_v13 : FVec F S640000x128 .f32 := gat (val_v4 a0 a3 a4) (wrap (row0 a1))
def val_v22 : FVec F S640000x128 .f32 := gat (val_v4 a0 a3 a4) (wrap (row1 a1))
def val_v23 : FVec F S640000x128 .f32 := addf (val_v13 a0 a1 a3 a4) (val_v22 a0 a1 a3 a4)
def val_v24 : FVec F S640000x256 .f32 := cat2 (val_v23 a0 a1 a3 a4) a2
def val_v29 : FVec F S640000x128 .f32 := lin1 (val_v24 a0 a1 a2 a3 a4) a5 a6
def val_v49 : FVec F S640000x128 .f32 := bnrelu (val_v29 a0 a1 a2 a3 a4 a5 a6) a7 a8
def val_v54 : FVec F S640000x128 .f32 := lin2 (val_v49 a0 a1 a2 a3 a4 a5 a6 a7 a8) a9 a10
def val_v74 : FVec F S640000x128 .f32 := bnrelu (val_v54 a0 a1 a2 a3 a4 a5 a6 a7 a8 a9 a10) a11 a12
end

end Cert.ReferenceIdeal.RefVal

end
-- ==== Proof.RV.Bcast.lean ====
import proofs.«426623_j69028714381392_1_alg».proof.Proof.RV.Stages
import Idealize.ShloMosaic.Lib.ValueLayout

noncomputable section

namespace Cert.ReferenceIdeal.RefVal

open Cert.ReferenceIdeal Idealize.ShloMosaic Idealize.ShloMosaic.ValueIdx
open Cert.ReferenceIdeal.Facts₀ Cert.ReferenceIdeal.Facts

variable {α : Type}

theorem row1x128_apply [Facts] (b : S128.Idx → α) (u : Fin 1) (j : Fin 128) :
    broadcastInDim S1x128 ![1] bcast_S128_S1x128_1 b (ix2 u j) = b (ix1 j) :=
  broadcastInDim_apply _ _ b _ (ix1 j) fun a => by match a with | ⟨0, _⟩ => rfl

theorem rep_apply {n : ℕ} (h : S1x128.BroadcastsInDim ⟨2, ![n, 128]⟩ ![0, 1]) (r : S1x128.Idx → α) (i : Fin n) (j : Fin 128) :
    broadcastInDim ⟨2, ![n, 128]⟩ ![0, 1] h r (ix2 i j) = r (ix2 (0 : Fin 1) j) :=
  broadcastInDim_apply _ _ r _ _ fun a => by match a with | ⟨0, _⟩ => rfl | ⟨1, _⟩ => rfl

theorem rows_apply [Facts] {n : ℕ} (h : S1x128.BroadcastsInDim ⟨2, ![n, 128]⟩ ![0, 1]) (b : S128.Idx → α) (i : Fin n) (j : Fin 128) :
    broadcastInDim ⟨2, ![n, 128]⟩ ![0, 1] h (broadcastInDim S1x128 ![1] bcast_S128_S1x128_1 b) (ix2 i j) = b (ix1 j) := by
  rw [rep_apply, row1x128_apply]

theorem col640000_apply [Facts] (r : S640000.Idx → α) (e : Fin 640000) (u : Fin 1) :
    broadcastInDim S640000x1 ![0] bcast_S640000_S640000x1_0 r (ix2 e u) = r (ix1 e) :=
  broadcastInDim_apply _ _ r _ (ix1 e) fun a => by match a with | ⟨0, _⟩ => rfl

theorem rows50000_apply [Facts] {F : FTy → Type} (b : FVec F S128 .f32) (i : Fin 50000) (j : Fin 128) : rows50000 b (ix2 i j) = b (ix1 j) :=
  rows_apply _ b i j

theorem rows640000_apply [Facts] {F : FTy → Type} (b : FVec F S128 .f32) (e : Fin 640000) (j : Fin 128) : rows640000 b (ix2 e j) = b (ix1 j) :=
  rows_apply _ b e j

end Cert.ReferenceIdeal.RefVal

end
-- ==== Proof.RV.Lin.lean ====
import proofs.«426623_j69028714381392_1_alg».proof.Proof.RV.Bcast
import Idealize.ShloMosaic.PureOps.Ideal.Laws

noncomputable section

open scoped BigOperators

namespace Cert.ReferenceIdeal.RefVal

open Cert.ReferenceIdeal Idealize.ShloMosaic Idealize.ShloMosaic.ValueIdx

variable [Facts]

-- the weight is transposed before the product, so row i of x meets row j of W
theorem lin_apply {m k n : ℕ} (ht : (⟨2, ![n, k]⟩ : Shape).Transposes [1, 0] ⟨2, ![k, n]⟩)
    (x : FVec Ideal ⟨2, ![m, k]⟩ .f32) (W : FVec Ideal ⟨2, ![n, k]⟩ .f32) (i : Fin m) (j : Fin n) :
    Host.dotGeneral (DotDims.plain m k n) none x (transpose ⟨2, ![k, n]⟩ [1, 0] W ht) (ix2 i j)
      = ∑ q : Fin k, x (ix2 i q) * W (ix2 j q) := by
  simp only [Host.dotGeneral]
  rw [Ideal.dotGeneral_apply, ← Equiv.sum_comp (contrEquiv1 (DotDims.plain m k n) k rfl rfl).symm]
  refine Finset.sum_congr rfl fun q _ => ?_
  have hq := contrEquiv1_symm_val (DotDims.plain m k n) k rfl rfl q
  rw [← transpose_ix2_apply W ht]
  congr 2 <;> funext a <;> refine Fin.ext ?_ <;> match a with
    | ⟨0, _⟩ => first | rfl | exact hq
    | ⟨1, _⟩ => first | rfl | exact hq

theorem lin0_apply (x : FVec Ideal S50000x128 .f32) (W : FVec Ideal S128x128 .f32) (b : FVec Ideal S128 .f32)
    (i : Fin 50000) (j : Fin 128) :
    lin0 (F := Ideal) x W b (ix2 i j) = (∑ k : Fin 128, x (ix2 i k) * W (ix2 j k)) + b (ix1 j) :=
  congrArg₂ (· + ·) (lin_apply _ x W i j) (rows50000_apply b i j)

theorem lin1_apply (c : FVec Ideal S640000x256 .f32) (W : FVec Ideal S128x256 .f32) (b : FVec Ideal S128 .f32)
    (i : Fin 640000) (j : Fin 128) :
    lin1 (F := Ideal) c W b (ix2 i j) = (∑ k : Fin 256, c (ix2 i k) * W (ix2 j k)) + b (ix1 j) :=
  congrArg₂ (· + ·) (lin_apply _ c W i j) (rows640000_apply b i j)

theorem lin2_apply (z : FVec Ideal S640000x128 .f32) (W : FVec Ideal S128x128 .f32) (b : FVec Ideal S128 .f32)
    (i : Fin 640000) (j : Fin 128) :
    lin2 (F := Ideal) z W b (ix2 i j) = (∑ k : Fin 128, z (ix2 i k) * W (ix2 j k)) + b (ix1 j) :=
  congrArg₂ (· + ·) (lin_apply _ z W i j) (rows640000_apply b i j)

end Cert.ReferenceIdeal.RefVal

end
-- ==== Proof.RV.BN.lean ====
import proofs.«426623_j69028714381392_1_alg».proof.Proof.RV.Bcast
import proofs.«426623_j69028714381392_1_alg».proof.Proof.Spec
import Idealize.ShloMosaic.Lib.IdealHost

noncomputable section

open scoped BigOperators

namespace Cert.ReferenceIdeal.RefVal

open Cert.ReferenceIdeal Idealize.ShloMosaic Idealize.ShloMosaic.ValueIdx
open Cert.ReferenceIdeal.Facts₀ Cert.ReferenceIdeal.Facts

variable [Facts]

theorem colsumV_apply (u : FVec Ideal S640000x128 .f32) (j : Fin 128) :
    colsumV (F := Ideal) u (ix1 j) = ∑ e : Fin 640000, u (ix2 e j) := by
  unfold colsumV
  simp only [Host.reduceAdd, Ideal.hostReduceAdd_def]
  rw [Ideal.hostReduceAdd_single reducesTo_S640000x128_S128_d0 (by decide), constant_apply, Ideal.ofBits_zero_f32, zero_add]
  exact Finset.sum_congr rfl fun k _ =>
    congrArg u (funext fun a => Fin.ext (by match a with | ⟨0, _⟩ => rfl | ⟨1, _⟩ => rfl))

theorem meanV_apply (u : FVec Ideal S640000x128 .f32) (j : Fin 128) :
    meanV (F := Ideal) u (ix1 j) = Cert.Spec.meanR (fun e j => u (ix2 e j)) j :=
  congrArg (Ideal.div · Cert.Spec.cnt) (colsumV_apply u j)

theorem cenV_apply (u : FVec Ideal S640000x128 .f32) (e : Fin 640000) (j : Fin 128) :
    cenV (F := Ideal) u (ix2 e j) = u (ix2 e j) - Cert.Spec.meanR (fun e j => u (ix2 e j)) j := by
  unfold cenV
  rw [subf_apply, rep_apply]
  exact congrArg (u _ - Ideal.div · Cert.Spec.cnt) ((row1x128_apply _ 0 j).trans (colsumV_apply u j))

theorem cntV_apply (i : S_.Idx) : cntV (F := Ideal) i = Cert.Spec.cnt := by
  show Ideal.ofBits .f32 0x491C4000#32 - (((0#32 : BitVec 32).toInt : ℝ) : EReal) = _
  rw [show (0#32 : BitVec 32).toInt = 0 by decide, Int.cast_zero, EReal.coe_zero, sub_zero]
  rfl

-- 640000 > 0 picks the quotient branch of the guarded division
theorem varV_apply (hcnt : Cert.Spec.cnt = ((640000 : ℝ) : EReal)) (u : FVec Ideal S640000x128 .f32) (j : Fin 128) :
    varV (F := Ideal) u (ix1 j) = Cert.Spec.varR (fun e j => u (ix2 e j)) j := by
  have hc : Ideal.cmp .ogt Cert.Spec.cnt (Ideal.ofBits .f32 0x00000000#32) = 1#1 := by
    rw [Ideal.ofBits_zero_f32, hcnt]
    show BitVec.ofBool (decide ((0 : EReal) < ((640000 : ℝ) : EReal))) = 1#1
    rw [decide_eq_true (EReal.coe_pos.mpr (by norm_num))]; rfl
  show Scalar.select (Ideal.cmp .ogt (cntV (F := Ideal) _) (Ideal.ofBits .f32 0x00000000#32))
    (Ideal.div (colsumV (F := Ideal) (mulf (cenV (F := Ideal) u) (cenV (F := Ideal) u)) (ix1 j)) (cntV (F := Ideal) _)) _ = _
  simp only [cntV_apply]
  rw [hc, select_one, colsumV_apply]
  exact congrArg (Ideal.div · Cert.Spec.cnt) (Finset.sum_congr rfl fun e _ => by rw [mulf_apply, cenV_apply])

theorem bnrelu_apply (hcnt : Cert.Spec.cnt = ((640000 : ℝ) : EReal)) (u : FVec Ideal S640000x128 .f32)
    (g be : FVec Ideal S128 .f32) (e : Fin 640000) (j : Fin 128) :
    bnrelu (F := Ideal) u g be (ix2 e j)
      = Cert.Spec.bnreluR (fun e j => u (ix2 e j)) (fun j => g (ix1 j)) (fun j => be (ix1 j)) e j := by
  unfold bnrelu
  rw [maximumf_apply, addf_apply, mulf_apply, mulf_apply, subf_apply, rows640000_apply, rows640000_apply, rows640000_apply,
    rows640000_apply]
  show max ((_ - meanV (F := Ideal) u (ix1 j)) * Ideal.rsqrt (varV (F := Ideal) u (ix1 j) + _) * _ + _) _ = _
  rw [meanV_apply, varV_apply hcnt]
  exact congrArg (max _) Ideal.ofBits_zero_f32

end Cert.ReferenceIdeal.RefVal

end
-- ==== Proof.RV.Gather.lean ====
import proofs.«426623_j69028714381392_1_alg».proof.Proof.RV.Bcast
import proofs.«426623_j69028714381392_1_alg».proof.Proof.SpecInp
import Idealize.ShloMosaic.Lib.Affine

noncomputable section

namespace Cert.ReferenceIdeal.RefVal

open Cert.ReferenceIdeal Idealize.ShloMosaic Idealize.ShloMosaic.ValueIdx

variable {F : FTy → Type} [FloatOps F] [Facts]

theorem row0_apply (a1 : IVec S2x640000 32) (e : Fin 640000) : row0 a1 (ix1 e) = a1 (ix2 (0 : Fin 2) e) :=
  (shapeCast_1a_a_apply _ _ e).trans (slice2_axis0_apply 0 a1 _ (0 : Fin 1) e (0 : Fin 2) rfl)

theorem row1_apply (a1 : IVec S2x640000 32) (e : Fin 640000) : row1 a1 (ix1 e) = a1 (ix2 (1 : Fin 2) e) :=
  (shapeCast_1a_a_apply _ _ e).trans (slice2_axis0_apply 1 a1 _ (0 : Fin 1) e (1 : Fin 2) rfl)

-- no index word is negative, so the node count is added nowhere
theorem wrap_apply (r : IVec S640000 32) (e : Fin 640000) (h : 0 ≤ (r (ix1 e)).toInt) :
    wrap r (ix2 e (0 : Fin 1)) = r (ix1 e) := by
  unfold wrap
  rw [col640000_apply]
  show Scalar.select (IntOp.cmpi .slt (r (ix1 e)) 0#32) _ _ = _
  have z : (0#32 : BitVec 32).toInt = 0 := by decide
  have hc : IntOp.cmpi .slt (r (ix1 e)) 0#32 = 0#1 := eq_zero_of_ne_one fun hc => by rw [IntOp.cmpi_slt, z] at hc; omega
  rw [hc, select_zero]

theorem gat_apply (h : FVec F S50000x128 .f32) (i : IVec S640000x1 32) (e : Fin 640000) (j : Fin 128) :
    gat h i (ix2 e j) = h (ix2 (⟨min (i (ix2 e (0 : Fin 1))).toInt.toNat 49999, by omega⟩ : Fin 50000) j) := by
  have hsi : gather_S50000x128_S640000x1_S640000x128_1_0_n_n_0_1_1128.siIdx (ix2 e j) ⟨0, Nat.one_pos⟩ = ix2 e (0 : Fin 1) :=
    funext fun b => Fin.ext (by match b with | ⟨0, _⟩ => rfl | ⟨1, _⟩ => rfl)
  unfold gat Host.gather
  refine congrArg h (funext fun a => Fin.ext ?_)
  match a with
  | ⟨0, _⟩ => exact congrArg (fun x => min (i x).toInt.toNat 49999) hsi
  | ⟨1, _⟩ => exact Nat.zero_add _

-- for 0 ≤ w < 50000 the signed and unsigned readings agree and the clamp is idle
theorem clamp_node (w : BitVec 32) (h : 0 ≤ w.toInt ∧ w.toInt < 50000) : min w.toInt.toNat 49999 = (Cert.Spec.node w).val := by
  have hw := BitVec.toInt_eq_toNat_of_lt (BitVec.toInt_pos_iff.1 h.1)
  rw [hw] at h ⊢
  show _ = w.toNat % 50000
  omega

theorem gat_node (h : FVec F S50000x128 .f32) (r : IVec S640000 32) (e : Fin 640000) (j : Fin 128)
    (hr : 0 ≤ (r (ix1 e)).toInt ∧ (r (ix1 e)).toInt < 50000) :
    gat h (wrap r) (ix2 e j) = h (ix2 (Cert.Spec.node (r (ix1 e))) j) := by
  rw [gat_apply]
  refine congrArg (fun r' : Fin 50000 => h (ix2 r' j)) (Fin.ext ?_)
  show min (wrap r (ix2 e (0 : Fin 1))).toInt.toNat 49999 = _
  rw [wrap_apply r e hr.1, clamp_node _ hr]

end Cert.ReferenceIdeal.RefVal

end
-- ==== Proof.RV.Final.lean ====
import proofs.«426623_j69028714381392_1_alg».proof.Proof.RV.Lin
import proofs.«426623_j69028714381392_1_alg».proof.Proof.RV.BN
import proofs.«426623_j69028714381392_1_alg».proof.Proof.RV.Gather
import proofs.«426623_j69028714381392_1_alg».proof.Proof.SpecLaws

noncomputable section

open scoped BigOperators

namespace Cert.ReferenceIdeal.RefVal

open Cert.ReferenceIdeal Idealize.ShloMosaic Idealize.ShloMosaic.ValueIdx

variable {F : FTy → Type} [FloatOps F] [Facts]

theorem cat2_apply (a b : FVec F S640000x128 .f32) (e : Fin 640000) (k : Fin 256) :
    cat2 a b (ix2 e k) = if hk : k.val < 128 then a (ix2 e ⟨k.val, hk⟩)
      else b (ix2 e ⟨k.val - 128, by have := k.isLt; omega⟩) := by
  unfold cat2
  split
  · exact concatenate_pair_apply_left 1 a b _ (ix2 e k) rfl (ix2 e (⟨k.val, ‹_›⟩ : Fin 128)) fun c => by
      match c with
      | ⟨0, _⟩ => rfl
      | ⟨1, _⟩ => rfl
  · exact concatenate_pair_apply_right 1 a b _ (ix2 e k) rfl rfl (ix2 e (⟨k.val - 128, by have := k.isLt; omega⟩ : Fin 128))
      (fun c hc => by
        match c, hc with
        | ⟨0, _⟩, _ => rfl
        | ⟨1, _⟩, hc => exact absurd rfl hc)
      (by show (k.val - 128) + 128 = k.val; omega)

-- stage by stage: cat (over agg and h), u1R, z1R, u2R, zR
theorem val_v74_apply (a0 : FVec Ideal S50000x128 .f32) (a1 : IVec S2x640000 32) (a2 : FVec Ideal S640000x128 .f32)
    (a3 : FVec Ideal S128x128 .f32) (a4 : FVec Ideal S128 .f32) (a5 : FVec Ideal S128x256 .f32) (a6 a7 a8 : FVec Ideal S128 .f32)
    (a9 : FVec Ideal S128x128 .f32) (a10 a11 a12 : FVec Ideal S128 .f32)
    (hr : ∀ (p : Fin 2) (e : Fin 640000), 0 ≤ (a1 (ix2 p e)).toInt ∧ (a1 (ix2 p e)).toInt < 50000)
    (e : Fin 640000) (j : Fin 128) :
    val_v74 (F := Ideal) a0 a1 a2 a3 a4 a5 a6 a7 a8 a9 a10 a11 a12 (ix2 e j)
      = Cert.Spec.zR (Cert.Spec.inpOf a0 a1 a2 a3 a4 a5 a6 a7 a8 a9 a10 a11 a12) e j := by
  set I := Cert.Spec.inpOf a0 a1 a2 a3 a4 a5 a6 a7 a8 a9 a10 a11 a12
  have h24 : ∀ e k, val_v24 (F := Ideal) a0 a1 a2 a3 a4 (ix2 e k) = Cert.Spec.cat I e k := fun e k => by
    unfold val_v24 val_v23 val_v13 val_v22 val_v4
    rw [cat2_apply]
    refine dite_congr rfl (fun _ => ?_) fun _ => rfl
    rw [addf_apply, gat_node _ _ _ _ (by rw [row0_apply]; exact hr 0 e), gat_node _ _ _ _ (by rw [row1_apply]; exact hr 1 e),
      row0_apply, row1_apply, lin0_apply, lin0_apply]
    rfl
  have h29 : (fun e j => val_v29 (F := Ideal) a0 a1 a2 a3 a4 a5 a6 (ix2 e j)) = Cert.Spec.u1R I := by
    funext e j; unfold val_v29; rw [lin1_apply]; simp only [h24]; rfl
  have h49 : ∀ e j, val_v49 (F := Ideal) a0 a1 a2 a3 a4 a5 a6 a7 a8 (ix2 e j) = Cert.Spec.z1R I e j := fun e j => by
    unfold val_v49; rw [bnrelu_apply Cert.Spec.cnt_eq, h29]; rfl
  have h54 : (fun e j => val_v54 (F := Ideal) a0 a1 a2 a3 a4 a5 a6 a7 a8 a9 a10 (ix2 e j)) = Cert.Spec.u2R I := by
    funext e j; unfold val_v54; rw [lin2_apply]; simp only [h49]; rfl
  unfold val_v74
  rw [bnrelu_apply Cert.Spec.cnt_eq, h54]
  rfl

end Cert.ReferenceIdeal.RefVal

end
-- ==== Proof.RefRun.lean ====
import proofs.«426623_j69028714381392_1_alg».proof.ReferenceIdeal
import proofs.«426623_j69028714381392_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ unary main_arg3 main_v0 (transpose S128x128 [1, 0] · transposes_S128x128_S128x128_1_0),
    binary main_arg0 main_v0 main_v1 (Host.dotGeneral dot_S50000x128_S128x128_S50000x128_1_0_0_1_n_n none),
    unary main_arg4 main_v2 (broadcastInDim S1x128 ![1] bcast_S128_S1x128_1),
    unary main_v2 main_v3 (broadcastInDim S50000x128 ![0, 1] bcast_S1x128_S50000x128_0_1),
    binary main_v1 main_v3 main_v4 addf,
    unary main_arg1 main_v5 (extractStridedSlice S1x640000 ![0, 0] · slices_S2x640000_S1x640000_0_0),
    reshape main_v5 main_v6 rfl shapeCasts_S1x640000_S640000,
    nullary main_c (constantI S_ 32 0#32),
    unary main_c main_v7 (broadcastInDim S640000 ![] bcast_S_S640000),
    binary main_v6 main_v7 main_v8 (cmpi .slt),
    nullary main_c_0 (constantI S_ 32 50000#32),
    unary main_c_0 main_v9 (broadcastInDim S640000 ![] bcast_S_S640000),
    binary main_v6 main_v9 main_v10 addi,
    ternary main_v8 main_v10 main_v6 main_v11 select,
    unary main_v11 main_v12 (broadcastInDim S640000x1 ![0] bcast_S640000_S640000x1_0),
    binary main_v4 main_v12 main_v13 (Host.gather gather_S50000x128_S640000x1_S640000x128_1_0_n_n_0_1_1128),
    unary main_arg1 main_v14 (extractStridedSlice S1x640000 ![1, 0] · slices_S2x640000_S1x640000_1_0),
    reshape main_v14 main_v15 rfl shapeCasts_S1x640000_S640000,
    nullary main_c_1 (constantI S_ 32 0#32),
    unary main_c_1 main_v16 (broadcastInDim S640000 ![] bcast_S_S640000),
    binary main_v15 main_v16 main_v17 (cmpi .slt),
    nullary main_c_2 (constantI S_ 32 50000#32),
    unary main_c_2 main_v18 (broadcastInDim S640000 ![] bcast_S_S640000),
    binary main_v15 main_v18 main_v19 addi,
    ternary main_v17 main_v19 main_v15 main_v20 select,
    unary main_v20 main_v21 (broadcastInDim S640000x1 ![0] bcast_S640000_S640000x1_0),
    binary main_v4 main_v21 main_v22 (Host.gather gather_S50000x128_S640000x1_S640000x128_1_0_n_n_0_1_1128),
    binary main_v13 main_v22 main_v23 addf,
    binary main_v23 main_arg2 main_v24 (fun a b => concatenate S640000x256 1 [⟨S640000x128, a⟩, ⟨S640000x128, b⟩] concatenates_S640000x128_S640000x128_S640000x256_d1),
    unary main_arg5 main_v25 (transpose S256x128 [1, 0] · transposes_S128x256_S256x128_1_0),
    binary main_v24 main_v25 main_v26 (Host.dotGeneral dot_S640000x256_S256x128_S640000x128_1_0_0_1_n_n none),
    unary main_arg6 main_v27 (broadcastInDim S1x128 ![1] bcast_S128_S1x128_1),
    unary main_v27 main_v28 (broadcastInDim S640000x128 ![0, 1] bcast_S1x128_S640000x128_0_1),
    binary main_v26 main_v28 main_v29 addf ]

/-- The centred variance of the columns of `x` over the count `640000 - c`: the body of the program's own function, over one call's buffers. -/
abbrev varOps (x : TRef sig ⟨S640000x128, .f32⟩) (c : TRef sig ⟨S_, .i32⟩) (φ : fn_var.Bufs) : List (HloOp τ sig (Elt F)) :=
  [ TRef.nullary φ.cst (constant S_ .f32 0x00000000#32),
    TRef.binary x φ.cst φ.v0 (fun x v => Host.reduceAdd x v reducesTo_S640000x128_S128_d0 h_S_),
    TRef.unary φ.v0 φ.v1 (broadcastInDim S1x128 ![1] bcast_S128_S1x128_1),
    TRef.nullary φ.cst_0 (constant S_ .f32 0x491C4000#32),
    TRef.unary φ.cst_0 φ.v2 (broadcastInDim S1x128 ![] bcast_S_S1x128),
    TRef.binary φ.v1 φ.v2 φ.v3 Host.divf,
    TRef.unary φ.v3 φ.v4 (broadcastInDim S640000x128 ![0, 1] bcast_S1x128_S640000x128_0_1),
    TRef.binary x φ.v4 φ.v5 subf,
    TRef.binary φ.v5 φ.v5 φ.v6 mulf,
    TRef.unary c φ.v7 (sitofp .f32),
    TRef.nullary φ.cst_1 (constant S_ .f32 0x491C4000#32),
    TRef.binary φ.cst_1 φ.v7 φ.v8 subf,
    TRef.nullary φ.cst_2 (constant S_ .f32 0x00000000#32),
    TRef.binary φ.v6 φ.cst_2 φ.v9 (fun x v => Host.reduceAdd x v reducesTo_S640000x128_S128_d0 h_S_),
    TRef.unary φ.v8 φ.v10 (broadcastInDim S128 ![] bcast_S_S128),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32),
    TRef.unary φ.cst_4 φ.call0.v0 id,
    TRef.unary φ.call0.v0 φ.call0.v1 (broadcastInDim S128 ![] bcast_S_S128),
    TRef.ternary φ.v12 φ.v11 φ.call0.v1 φ.call0.v2 (fun p a b => select (broadcastInDim S128 ![] bcast_S_S128 p) a b) ]

abbrev opsB : List (HloOp τ sig (Elt F)) :=
  [ nullary main_cst (constant S_ .f32 0x00000000#32),
    binary main_v29 main_cst main_v30 (fun x v => Host.reduceAdd x v reducesTo_S640000x128_S128_d0 h_S_),
    nullary main_cst_3 (constant S_ .f32 0x491C4000#32),
    unary main_cst_3 main_v31 (broadcastInDim S128 ![] bcast_S_S128),
    binary main_v30 main_v31 main_v32 Host.divf,
    nullary main_c_4 (constantI S_ 32 0#32) ] ++ (varOps (.of main_v29) (.of main_c_4) main_call0 ++
  [ unary main_v32 main_v34 (broadcastInDim S1x128 ![1] bcast_S128_S1x128_1),
    unary main_v34 main_v35 (broadcastInDim S640000x128 ![0, 1] bcast_S1x128_S640000x128_0_1),
    binary main_v29 main_v35 main_v36 subf,
    nullary main_cst_5 (constant S_ .f32 0x3727C5AC#32),
    unary main_cst_5 main_v37 (broadcastInDim S128 ![] bcast_S_S128),
    binary main_v33 main_v37 main_v38 addf,
    unary main_v38 main_v39 Host.rsqrt,
    unary main_v39 main_v40 (broadcastInDim S1x128 ![1] bcast_S128_S1x128_1),
    unary main_v40 main_v41 (broadcastInDim S640000x128 ![0, 1] bcast_S1x128_S640000x128_0_1),
    binary main_v36 main_v41 main_v42 mulf,
    unary main_arg7 main_v43 (broadcastInDim S1x128 ![1] bcast_S128_S1x128_1),
    unary main_v43 main_v44 (broadcastInDim S640000x128 ![0, 1] bcast_S1x128_S640000x128_0_1),
    binary main_v42 main_v44 main_v45 mulf,
    unary main_arg8 main_v46 (broadcastInDim S1x128 ![1] bcast_S128_S1x128_1),
    unary main_v46 main_v47 (broadcastInDim S640000x128 ![0, 1] bcast_S1x128_S640000x128_0_1),
    binary main_v45 main_v47 main_v48 addf,
    nullary main_call1_cst (constant S_ .f32 0x00000000#32),
    unary main_call1_cst main_call1_v0 (broadcastInDim S640000x128 ![] bcast_S_S640000x128),
    binary main_v48 main_call1_v0 main_v49 maximumf ])

abbrev opsC : List (HloOp τ sig (Elt F)) :=
  [ unary main_arg9 main_v50 (transpose S128x128 [1, 0] · transposes_S128x128_S128x128_1_0),
    binary main_v49 main_v50 main_v51 (Host.dotGeneral dot_S640000x128_S128x128_S640000x128_1_0_0_1_n_n none),
    unary main_arg10 main_v52 (broadcastInDim S1x128 ![1] bcast_S128_S1x128_1),
    unary main_v52 main_v53 (broadcastInDim S640000x128 ![0, 1] bcast_S1x128_S640000x128_0_1),
    binary main_v51 main_v53 main_v54 addf ]

abbrev opsD : List (HloOp τ sig (Elt F)) :=
  [ nullary main_cst_6 (constant S_ .f32 0x00000000#32),
    binary main_v54 main_cst_6 main_v55 (fun x v => Host.reduceAdd x v reducesTo_S640000x128_S128_d0 h_S_),
    nullary main_cst_7 (constant S_ .f32 0x491C4000#32),
    unary main_cst_7 main_v56 (broadcastInDim S128 ![] bcast_S_S128),
    binary main_v55 main_v56 main_v57 Host.divf,
    nullary main_c_8 (constantI S_ 32 0#32) ] ++ (varOps (.of main_v54) (.of main_c_8) main_call2 ++
  [ unary main_v57 main_v59 (broadcastInDim S1x128 ![1] bcast_S128_S1x128_1),
    unary main_v59 main_v60 (broadcastInDim S640000x128 ![0, 1] bcast_S1x128_S640000x128_0_1),
    binary main_v54 main_v60 main_v61 subf,
    nullary main_cst_9 (constant S_ .f32 0x3727C5AC#32),
    unary main_cst_9 main_v62 (broadcastInDim S128 ![] bcast_S_S128),
    binary main_v58 main_v62 main_v63 addf,
    unary main_v63 main_v64 Host.rsqrt,
    unary main_v64 main_v65 (broadcastInDim S1x128 ![1] bcast_S128_S1x128_1),
    unary main_v65 main_v66 (broadcastInDim S640000x128 ![0, 1] bcast_S1x128_S640000x128_0_1),
    binary main_v61 main_v66 main_v67 mulf,
    unary main_arg11 main_v68 (broadcastInDim S1x128 ![1] bcast_S128_S1x128_1),
    unary main_v68 main_v69 (broadcastInDim S640000x128 ![0, 1] bcast_S1x128_S640000x128_0_1),
    binary main_v67 main_v69 main_v70 mulf,
    unary main_arg12 main_v71 (broadcastInDim S1x128 ![1] bcast_S128_S1x128_1),
    unary main_v71 main_v72 (broadcastInDim S640000x128 ![0, 1] bcast_S1x128_S640000x128_0_1),
    binary main_v70 main_v72 main_v73 addf,
    nullary main_call3_cst (constant S_ .f32 0x00000000#32),
    unary main_call3_cst main_call3_v0 (broadcastInDim S640000x128 ![] bcast_S_S640000x128),
    binary main_v73 main_call3_v0 main_v74 maximumf ])

abbrev ops : List (HloOp τ sig (Elt F)) := opsA ++ (opsB ++ (opsC ++ opsD))

/-- Each operation writes one buffer, never one of the thirteen arguments, and determines what it writes. -/
structure Ok (op : HloOp τ sig (Elt F)) : Prop where
  sub : op.bufs ⊆ tcRefs τ sig
  fresh : op.fresh = ∅
  past : ∃ y : Ref sig .tc, 13 ≤ y.idx.val ∧ op.writes = {Proc.devRef .tc y}

theorem ok : (ops : List (HloOp τ sig (Elt F))).Forall Ok := by
  repeat' apply And.intro
  all_goals exact ⟨by simp only [nullary_bufs_sub, unary_bufs_sub, binary_bufs_sub, ternary_bufs_sub, reshape_bufs_sub], rfl, _, by decide, rfl⟩

/-- So a line of such operations leaves every argument as it was. -/
theorem keep {l : List (HloOp τ sig (Elt F))} (hl : l.Forall Ok) {r : Ref sig .tc} (hr : r.idx.val < 13) (V : Valuation τ sig (Elt F)) :
    after l V (Proc.devRef .tc r) = V (Proc.devRef .tc r) :=
  after_of_forall_not_mem l V fun op hop hb => by
    obtain ⟨y, hy, hw⟩ := (List.forall_iff_forall_mem.1 hl op hop).past
    rw [hw, Finset.mem_singleton] at hb
    cases Proc.devRef_injective _ hb
    omega

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = after ops (fun b => m (c, b)) (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      have k (b : Ref sig .tc) (hb : b.idx.val < 13) : _ = m ((c.tc : Thread nD τ).loc b) := (h c b).trans (keep ok hb _)
      ⟨h c main_v74, k _ (by decide), k _ (by decide), k _ (by decide), k _ (by decide), k _ (by decide), k _ (by decide), k _ (by decide), k _ (by decide), k _ (by decide), k _ (by decide), k _ (by decide), k _ (by decide), k _ (by decide)⟩)
    (run_seq (by decide) (by decide) defs main (fun _ => ops) (fun _ => rfl) (fun _ => ok.imp fun _ => Ok.sub) m ρ
      fun _ op hop => (List.forall_iff_forall_mem.1 ok op hop).fresh)

end Cert.ReferenceIdeal.RefRun

end
-- ==== Proof.RV.Link.lean ====
import proofs.«426623_j69028714381392_1_alg».proof.Proof.RefRun
import proofs.«426623_j69028714381392_1_alg».proof.Proof.RV.Stages
import Idealize.ShloMosaic.Lib.Pipeline.Frame

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F] (V : Valuation τ sig (Elt F))

theorem opsA_v29 : after opsA V main_v29 = val_v29 (F := F) (V main_arg0) (V main_arg1) (V main_arg2) (V main_arg3) (V main_arg4) (V main_arg5) (V main_arg6) := by
  after_results_simp
  rfl

theorem opsB_v49 : after opsB V main_v49 = bnrelu (F := F) (V main_v29) (V main_arg7) (V main_arg8) := by
  rw [after_append, after_append]
  after_results_simp
  rfl

theorem opsC_v54 : after opsC V main_v54 = lin2 (F := F) (V main_v49) (V main_arg9) (V main_arg10) := by
  after_results_simp
  rfl

theorem opsD_v74 : after opsD V main_v74 = bnrelu (F := F) (V main_v54) (V main_arg11) (V main_arg12) := by
  rw [after_append, after_append]
  after_results_simp
  rfl

/-- The line is cut at the three arrays every later operation reads through: each stretch is one stage of the value. -/
theorem result_eq : after ops V main_v74 = val_v74 (F := F) (V main_arg0) (V main_arg1) (V main_arg2) (V main_arg3) (V main_arg4) (V main_arg5) (V main_arg6)
    (V main_arg7) (V main_arg8) (V main_arg9) (V main_arg10) (V main_arg11) (V main_arg12) := by
  obtain ⟨hA, hB, hC, -⟩ : opsA.Forall Ok ∧ opsB.Forall Ok ∧ opsC.Forall Ok ∧ opsD.Forall Ok := by
    simpa only [List.forall_append] using ok (F := F)
  rw [after_append, after_append, after_append, opsD_v74, opsC_v54, opsB_v49, opsA_v29]
  simp (disch := decide) only [keep hA, keep hB, keep hC]
  rfl

theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74)
        = val_v74 (F := F) (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (result_eq _), (h c).2⟩) (run m ρ)

end Cert.ReferenceIdeal.RefVal

end
-- ==== Proof.PreFacts.lean ====
import proofs.«426623_j69028714381392_1_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic Cert.Pre_finite_inputs

instance : Subsingleton S_.Idx := ⟨fun _ _ => funext fun d => d.elim0⟩

def AllReal {s : Shape} (x : FVec Ideal s .f32) : Prop := ∀ i, ∃ r : ℝ, x i = (r : EReal)

variable {s : Shape} {axes : List (Fin s.rank)} {hb : S_.BroadcastsInDim s (![] : Fin 0 → Fin s.rank)}
  {hr : s.ReducesTo axes S_} {h0 : 0 < S_.numel} {j : S_.Idx}

-- |x| < ⊤ fails at both infinities, whose absolute value is ⊤
theorem finite_of_all {x : FVec Ideal s .f32}
    (e : Host.reduce IntOp.andi (cmpf .olt (Host.absf x) (broadcastInDim s ![] hb (constant S_ .f32 0x7F800000#32)))
      (constantI S_ 1 1#1) hr h0 j = 1#1) : AllReal x := fun i => by
  have h := Host.reduce_andi_all _ _ hr h0 j e i
  change Ideal.cmp .olt (max (x i) (-(x i))) (Ideal.ofBits .f32 0x7F800000#32) = 1#1 at h
  rw [show Ideal.ofBits .f32 0x7F800000#32 = ⊤ by simp [Ideal.ofBits, Ideal.ieee]] at h
  generalize x i = y at h ⊢
  induction y using EReal.rec with
  | bot => simp [Ideal.cmp] at h
  | top => simp [Ideal.cmp] at h
  | coe r => exact ⟨r, rfl⟩

theorem range_of_all {a : IVec s 32}
    (e : Host.reduce IntOp.andi (andi (cmpi .sge a (broadcastInDim s ![] hb (constantI S_ 32 0#32)))
        (cmpi .slt a (broadcastInDim s ![] hb (constantI S_ 32 50000#32)))) (constantI S_ 1 1#1) hr h0 j = 1#1)
    (i : s.Idx) : 0 ≤ (a i).toInt ∧ (a i).toInt < 50000 := by
  have h := Host.reduce_andi_all _ _ hr h0 j e i
  change IntOp.andi (IntOp.cmpi .sge (a i) 0#32) (IntOp.cmpi .slt (a i) 50000#32) = 1#1 at h
  rw [IntOp.andi_eq_one, IntOp.cmpi_sge, IntOp.cmpi_slt] at h
  exact h

theorem andi_at {s : Shape} {w : Nat} (x y : IVec s w) (i : s.Idx) : andi x y i = IntOp.andi (x i) (y i) := rfl

variable [Facts] (a0 : FVec Ideal S50000x128 .f32) (a1 : IVec S2x640000 32) (a2 : FVec Ideal S640000x128 .f32)
  (a3 : FVec Ideal S128x128 .f32) (a4 : FVec Ideal S128 .f32) (a5 : FVec Ideal S128x256 .f32) (a6 a7 a8 : FVec Ideal S128 .f32)
  (a9 : FVec Ideal S128x128 .f32) (a10 a11 a12 : FVec Ideal S128 .f32)

-- one all-reduction per argument, and-ed together
theorem decoded (h : fn (F := Ideal) a0 a1 a2 a3 a4 a5 a6 a7 a8 a9 a10 a11 a12 = (fun _ => 1#1)) :
    (AllReal a0 ∧ AllReal a2 ∧ AllReal a3 ∧ AllReal a4 ∧ AllReal a5 ∧ AllReal a6 ∧ AllReal a7 ∧ AllReal a8 ∧ AllReal a9
      ∧ AllReal a10 ∧ AllReal a11 ∧ AllReal a12) ∧ ∀ i, 0 ≤ (a1 i).toInt ∧ (a1 i).toInt < 50000 := by
  have e := congrFun h ValueIdx.ix0
  dsimp only [fn, fn_part1, fn_part2, fn_part3] at e
  simp only [andi_at, IntOp.andi_eq_one] at e
  obtain ⟨⟨⟨⟨⟨⟨⟨⟨⟨⟨⟨⟨e0, e2⟩, e3⟩, e4⟩, e5⟩, e6⟩, e7⟩, e8⟩, e9⟩, e10⟩, e11⟩, e12⟩, ei⟩ := e
  exact ⟨⟨finite_of_all e0, finite_of_all e2, finite_of_all e3, finite_of_all e4, finite_of_all e5, finite_of_all e6,
    finite_of_all e7, finite_of_all e8, finite_of_all e9, finite_of_all e10, finite_of_all e11, finite_of_all e12⟩,
    range_of_all ei⟩

end Cert.PreFacts
end
-- ==== Proof.InpFacts.lean ====
import proofs.«426623_j69028714381392_1_alg».proof.Proof.PreFacts
import proofs.«426623_j69028714381392_1_alg».proof.Proof.SpecInp

noncomputable section

namespace Cert.InpFacts

open Idealize.ShloMosaic Cert.Pre_finite_inputs ValueIdx

variable [Facts] (a0 : FVec Ideal S50000x128 .f32) (a1 : IVec S2x640000 32) (a2 : FVec Ideal S640000x128 .f32)
  (a3 : FVec Ideal S128x128 .f32) (a4 : FVec Ideal S128 .f32) (a5 : FVec Ideal S128x256 .f32) (a6 a7 a8 : FVec Ideal S128 .f32)
  (a9 : FVec Ideal S128x128 .f32) (a10 a11 a12 : FVec Ideal S128 .f32)
  (h : fn (F := Ideal) a0 a1 a2 a3 a4 a5 a6 a7 a8 a9 a10 a11 a12 = (fun _ => 1#1))
include h

theorem inp_finite : (Cert.Spec.inpOf a0 a1 a2 a3 a4 a5 a6 a7 a8 a9 a10 a11 a12).Finite := by
  obtain ⟨f0, f2, f3, f4, f5, f6, f7, f8, f9, f10, f11, f12⟩ := (Cert.PreFacts.decoded a0 a1 a2 a3 a4 a5 a6 a7 a8 a9 a10 a11 a12 h).1
  exact ⟨fun _ _ => f0 _, fun _ _ => f2 _, fun _ _ => f3 _, fun _ => f4 _, fun _ _ => f5 _, fun _ => f6 _, fun _ => f7 _,
    fun _ => f8 _, fun _ _ => f9 _, fun _ => f10 _, fun _ => f11 _, fun _ => f12 _⟩

theorem idx_range (p : Fin 2) (e : Fin 640000) : 0 ≤ (a1 (ix2 p e)).toInt ∧ (a1 (ix2 p e)).toInt < 50000 :=
  (Cert.PreFacts.decoded a0 a1 a2 a3 a4 a5 a6 a7 a8 a9 a10 a11 a12 h).2 _

end Cert.InpFacts

end
-- ==== Proof.lean ====
/-
  A graph layer over 50000 nodes and 640000 edges: h = x·W_linᵀ + b_lin; an edge with end nodes s and d carries
  h s + h d joined with its attributes through two linear maps, each followed by a normalisation over the edges (column
  mean and variance) and a clamp at zero. The kernel program takes the variance as the mean of squares less the squared
  mean, from column sums gathered block by block; the reference centres first. On finite inputs with end nodes below
  50000 the two results are equal on the extended reals.
-/
import proofs.«426623_j69028714381392_1_alg».proof.Defs
import proofs.«426623_j69028714381392_1_alg».proof.Proof.Gen.Kernel
import proofs.«426623_j69028714381392_1_alg».proof.Proof.Gen.KernelIdeal
import proofs.«426623_j69028714381392_1_alg».proof.Proof.Gen.ReferenceIdeal
import proofs.«426623_j69028714381392_1_alg».proof.Proof.Gen.Pre_finite_inputs
import proofs.«426623_j69028714381392_1_alg».proof.Proof.K.Run
import proofs.«426623_j69028714381392_1_alg».proof.Proof.KI.Run
import proofs.«426623_j69028714381392_1_alg».proof.Proof.KV.Chain
import proofs.«426623_j69028714381392_1_alg».proof.Proof.RV.Final
import proofs.«426623_j69028714381392_1_alg».proof.Proof.RV.Link
import proofs.«426623_j69028714381392_1_alg».proof.Proof.SpecLaws
import proofs.«426623_j69028714381392_1_alg».proof.Proof.InpFacts
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- The kernel side is the mean-of-squares spelling at every index, the reference the centred one; they agree on finite inputs. -/
theorem algebraic : Cert.algebraic_KernelIdeal_ReferenceIdeal := by
  intro m ρ m' ρ' hpre hagree
  refine ⟨fun c => Cert.KernelIdeal.Hand.o11 (F := Ideal) m c, Cert.KernelIdeal.Hand.run_value m ρ, ?_⟩
  refine (θ_run Cert.ReferenceIdeal.defs _ _).mono (fun _ h c => ⟨(h c).1.trans ?_, (h c).2⟩)
    (Cert.ReferenceIdeal.RefVal.run_val (F := Ideal) m' ρ')
  obtain ⟨h0, h1, h2, h3, h4, h5, h6, h7, h8, h9, h10, h11, h12⟩ := hagree c
  rw [h0, h1, h2, h3, h4, h5, h6, h7, h8, h9, h10, h11, h12]
  have hr := Cert.InpFacts.idx_range _ _ _ _ _ _ _ _ _ _ _ _ _ (hpre c)
  funext i
  obtain ⟨e, j, rfl⟩ : ∃ (e : Fin 640000) (j : Fin 128), i = ix2 e j := ⟨i 0, i 1, eq_ix2 i⟩
  refine (Cert.ReferenceIdeal.RefVal.val_v74_apply _ _ _ _ _ _ _ _ _ _ _ _ _ hr e j).trans ?_
  rw [← Cert.Spec.zK_eq_zR _ (Cert.InpFacts.inp_finite _ _ _ _ _ _ _ _ _ _ _ _ _ (hpre c))]
  exact (Cert.KernelIdeal.Val.chain m c hr e j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
